-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S640000 : Shape := ⟨1, ![640000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S640000 : S_.BroadcastsInDim S640000 (![] : Fin 0 → Fin S640000.rank)
  reducesTo_S640000_S_d0 : S640000.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg7 : IVec S640000 32) (main_v28 : IVec S_ 1) (main_v33 : IVec S640000 1) : IVec S_ 1 :=
  let main_c_12 : IVec S_ 1 := constantI S_ 1 1#1
  let main_v34 : IVec S_ 1 := (fun x v => Host.reduce IntOp.andi x v reducesTo_S640000_S_d0 h_S_) main_v33 main_c_12
  let main_v35 : IVec S_ 1 := andi main_v28 main_v34
  let main_c_13 : IVec S_ 32 := constantI S_ 32 0#32
  let main_v36 : IVec S640000 32 := broadcastInDim S640000 ![] bcast_S_S640000 main_c_13
  let main_v37 : IVec S640000 1 := cmpi .sge main_arg7 main_v36
  let main_c_14 : IVec S_ 32 := constantI S_ 32 10000#32
  let main_v38 : IVec S640000 32 := broadcastInDim S640000 ![] bcast_S_S640000 main_c_14
  let main_v39 : IVec S640000 1 := cmpi .slt main_arg7 main_v38
  let main_v40 : IVec S640000 1 := andi main_v37 main_v39
  let main_c_15 : IVec S_ 1 := constantI S_ 1 1#1
  let main_v41 : IVec S_ 1 := (fun x v => Host.reduce IntOp.andi x v reducesTo_S640000_S_d0 h_S_) main_v40 main_c_15
  let main_v42 : IVec S_ 1 := andi main_v35 main_v41
  main_v42

def fn_part1 {F : FTy → Type} [FloatOps F] (main_arg4 : FVec F S128x40 .f32) (main_arg5 : FVec F S40 .f32) (main_arg6 : IVec S640000 32) (main_arg7 : IVec S640000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg4
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg5
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_c_10 : IVec S_ 32 := constantI S_ 32 0#32
  let main_v29 : IVec S640000 32 := broadcastInDim S640000 ![] bcast_S_S640000 main_c_10
  let main_v30 : IVec S640000 1 := cmpi .sge main_arg6 main_v29
  let main_c_11 : IVec S_ 32 := constantI S_ 32 10000#32
  let main_v31 : IVec S640000 32 := broadcastInDim S640000 ![] bcast_S_S640000 main_c_11
  let main_v32 : IVec S640000 1 := cmpi .slt main_arg6 main_v31
  let main_v33 : IVec S640000 1 := andi main_v30 main_v32
  fn_part2 (F := F) main_arg7 main_v28 main_v33

def fn {F : FTy → Type} [FloatOps F] (main_arg0 : FVec F S10000x512 .f32) (main_arg1 : FVec F S640000 .f32) (main_arg2 : FVec F S512x128 .f32) (main_arg3 : FVec F S128 .f32) (main_arg4 : FVec F S128x40 .f32) (main_arg5 : FVec F S40 .f32) (main_arg6 : IVec S640000 32) (main_arg7 : IVec S640000 32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S640000 .f32 := Host.absf main_arg1
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S10000x512 : Shape := ⟨2, ![10000, 512]⟩
abbrev S640000 : Shape := ⟨1, ![640000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S_ : Shape := ⟨0, ![]⟩
abbrev S104857600 : Shape := ⟨1, ![104857600]⟩
abbrev S640000x1 : Shape := ⟨2, ![640000, 1]⟩
abbrev S10240x10240 : Shape := ⟨2, ![10240, 10240]⟩
abbrev S10240x512 : Shape := ⟨2, ![10240, 512]⟩
abbrev S1x128 : Shape := ⟨2, ![1, 128]⟩
abbrev S1x40 : Shape := ⟨2, ![1, 40]⟩
abbrev S10240x128 : Shape := ⟨2, ![10240, 128]⟩
abbrev S2048x512 : Shape := ⟨2, ![2048, 512]⟩
abbrev S2048x128 : Shape := ⟨2, ![2048, 128]⟩
abbrev S1280x1280 : Shape := ⟨2, ![1280, 1280]⟩
abbrev S1280x128 : Shape := ⟨2, ![1280, 128]⟩
abbrev S10240x40 : Shape := ⟨2, ![10240, 40]⟩
abbrev S2048x40 : Shape := ⟨2, ![2048, 40]⟩
abbrev S1280x40 : Shape := ⟨2, ![1280, 40]⟩
abbrev S1280 : Shape := ⟨1, ![1280]⟩
abbrev S1280x1 : Shape := ⟨2, ![1280, 1]⟩
abbrev S10000x40 : Shape := ⟨2, ![10000, 40]⟩

abbrev nBuf : Space → Nat
  | .hbm => 28
  | .vmem => 26
  | .smem => 0
  | _ => 0

abbrev bufTy : (tb : Table) → Fin (tcTables nBuf tb) → BufTy
  | .hbm, ⟨0, _⟩ => ⟨S10000x512, .f32⟩
  | .hbm, ⟨1, _⟩ => ⟨S640000, .f32⟩
  | .hbm, ⟨2, _⟩ => ⟨S512x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S640000, .i32⟩
  | .hbm, ⟨7, _⟩ => ⟨S640000, .i32⟩
  | .hbm, ⟨8, _⟩ => ⟨S_, .i32⟩
  | .hbm, ⟨9, _⟩ => ⟨S640000, .i32⟩
  | .hbm, ⟨10, _⟩ => ⟨S640000, .i32⟩
  | .hbm, ⟨11, _⟩ => ⟨S640000, .i32⟩
  | .hbm, ⟨12, _⟩ => ⟨S_, .f32⟩
  | .hbm, ⟨13, _⟩ => ⟨S104857600, .f32⟩
  | .hbm, ⟨14, _⟩ => ⟨S640000x1, .i32⟩
  | .hbm, ⟨15, _⟩ => ⟨S104857600, .f32⟩
  | .hbm, ⟨16, _⟩ => ⟨S10240x10240, .f32⟩
  | .hbm, ⟨17, _⟩ => ⟨S10240x10240, .bf16⟩
  | .hbm, ⟨18, _⟩ => ⟨S_, .i32⟩
  | .hbm, ⟨19, _⟩ => ⟨S_, .f32⟩
  | .hbm, ⟨20, _⟩ => ⟨S10240x512, .f32⟩
  | .hbm, ⟨21, _⟩ => ⟨S1x128, .f32⟩
  | .hbm, ⟨22, _⟩ => ⟨S1x40, .f32⟩
  | .hbm, ⟨23, _⟩ => ⟨S10240x128, .f32⟩
  | .hbm, ⟨24, _⟩ => ⟨S10240x128, .f32⟩
  | .hbm, ⟨25, _⟩ => ⟨S10240x40, .f32⟩
  | .hbm, ⟨26, _⟩ => ⟨S10240x40, .f32⟩
  | .hbm, ⟨27, _⟩ => ⟨S10000x40, .f32⟩
  | .local _ .vmem, ⟨0, _⟩ => ⟨S2048x512, .f32⟩
  | .local _ .vmem, ⟨1, _⟩ => ⟨S2048x512, .f32⟩
  | .local _ .vmem, ⟨2, _⟩ => ⟨S512x128, .f32⟩
  | .local _ .vmem, ⟨3, _⟩ => ⟨S2048x128, .f32⟩
  | .local _ .vmem, ⟨4, _⟩ => ⟨S2048x128, .f32⟩
  | .local _ .vmem, ⟨5, _⟩ => ⟨S1280x1280, .bf16⟩
  | .local _ .vmem, ⟨6, _⟩ => ⟨S1280x1280, .bf16⟩
  | .local _ .vmem, ⟨7, _⟩ => ⟨S1280x128, .f32⟩
  | .local _ .vmem, ⟨8, _⟩ => ⟨S1280x128, .f32⟩
  | .local _ .vmem, ⟨9, _⟩ => ⟨S1x128, .f32⟩
  | .local _ .vmem, ⟨10, _⟩ => ⟨S1280x128, .f32⟩
  | .local _ .vmem, ⟨11, _⟩ => ⟨S1280x128, .f32⟩
  | .local _ .vmem, ⟨12, _⟩ => ⟨S1280x128, .f32⟩
  | .local _ .vmem, ⟨13, _⟩ => ⟨S2048x128, .f32⟩
  | .local _ .vmem, ⟨14, _⟩ => ⟨S2048x128, .f32⟩
  | .local _ .vmem, ⟨15, _⟩ => ⟨S128x40, .f32⟩
  | .local _ .vmem, ⟨16, _⟩ => ⟨S2048x40, .f32⟩
  | .local _ .vmem, ⟨17, _⟩ => ⟨S2048x40, .f32⟩
  | .local _ .vmem, ⟨18, _⟩ => ⟨S1280x1280, .bf16⟩
  | .local _ .vmem, ⟨19, _⟩ => ⟨S1280x1280, .bf16⟩
  | .local _ .vmem, ⟨20, _⟩ => ⟨S1280x40, .f32⟩
  | .local _ .vmem, ⟨21, _⟩ => ⟨S1280x40, .f32⟩
  | .local _ .vmem, ⟨22, _⟩ => ⟨S1x40, .f32⟩
  | .local _ .vmem, ⟨23, _⟩ => ⟨S1280x40, .f32⟩
  | .local _ .vmem, ⟨24, _⟩ => ⟨S1280x40, .f32⟩
  | .local _ .vmem, ⟨25, _⟩ => ⟨S1280x40, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_call0_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc3_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1280x1280 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1280x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1280x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![8, 8], ![false, false]⟩

def k3_cond2 (i : grid3.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1280x1280 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1280x40 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1280x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

class Facts₀ : Prop where
  bcast_S_S640000 : S_.BroadcastsInDim S640000 (![] : Fin 0 → Fin S640000.rank)
  bcast_S_S104857600 : S_.BroadcastsInDim S104857600 (![] : Fin 0 → Fin S104857600.rank)
  bcast_S640000_S640000x1_0 : S640000.BroadcastsInDim S640000x1 (![0] : Fin 1 → Fin S640000x1.rank)
  shapeCasts_S104857600_S10240x10240 : S104857600.ShapeCasts S10240x10240
  bitsLt_bf16_f32 : FTy.bits .bf16 < FTy.bits .f32
  pads_S10000x512_S10240x512_02400_000 : S10000x512.Pads (![0, 0] : Fin 2 → Nat) ![240, 0] ![0, 0] S10240x512
  h_S_ : 0 < S_.numel
  shapeCasts_S128_S1x128 : S128.ShapeCasts S1x128
  shapeCasts_S40_S1x40 : S40.ShapeCasts S1x40
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x128_S512x128_0_0 : ∀ a, (![0, 0] : Fin 2 → Nat) a + S512x128.size a ≤ S512x128.size a
  h_S512x128 : 0 < S512x128.numel
  inb_S2048x128_S2048x128_0_0 : ∀ a, (![0, 0] : Fin 2 → Nat) a + S2048x128.size a ≤ S2048x128.size a
  h_S2048x128 : 0 < S2048x128.numel
  inb_S1280x128_S1280x128_0_0 : ∀ a, (![0, 0] : Fin 2 → Nat) a + S1280x128.size a ≤ S1280x128.size a
  h_S1280x128 : 0 < S1280x128.numel
  shapeCasts_S1280x128_S1280x128 : S1280x128.ShapeCasts S1280x128
  inb_S1280x1280_S1280x1280_0_0 : ∀ a, (![0, 0] : Fin 2 → Nat) a + S1280x1280.size a ≤ S1280x1280.size a
  h_S1280x1280 : 0 < S1280x1280.numel
  shapeCasts_S1280x1280_S1280x1280 : S1280x1280.ShapeCasts S1280x1280
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1280x128 : S1x128.Broadcasts S1280x128
  shapeCasts_S2048x128_S2048x128 : S2048x128.ShapeCasts S2048x128
  inb_S128x40_S128x40_0_0 : ∀ a, (![0, 0] : Fin 2 → Nat) a + S128x40.size a ≤ S128x40.size a
  h_S128x40 : 0 < S128x40.numel
  inb_S2048x40_S2048x40_0_0 : ∀ a, (![0, 0] : Fin 2 → Nat) a + S2048x40.size a ≤ S2048x40.size a
  h_S2048x40 : 0 < S2048x40.numel
  inb_S1280x40_S1280x40_0_0 : ∀ a, (![0, 0] : Fin 2 → Nat) a + S1280x40.size a ≤ S1280x40.size a
  h_S1280x40 : 0 < S1280x40.numel
  shapeCasts_S1280x40_S1280x40 : S1280x40.ShapeCasts S1280x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S1280x40 : S1x40.Broadcasts S1280x40
  reduces_S1280x40_S1280 : S1280x40.Reduces [1] S1280
  shapeCasts_S1280_S1280x1 : S1280.ShapeCasts S1280x1
  broadcasts_S1280x1_S1280x40 : S1280x1.Broadcasts S1280x40
  slices_S10240x40_S10000x40_0_0 : S10240x40.Slices ![0, 0] S10000x40
  scatter_S104857600_S640000x1_S640000_n_0_0_1_wf : ScatterDims.WF S104857600 S640000x1 S640000 [] [0] [0] 1
  dot_S2048x512_S512x128_S2048x128_1_0_0_1_n_n_wf : DotDims.WF S2048x512 S512x128 S2048x128 [1] [0] [0] [1] [] []
  dot_S1280x1280_S1280x128_S1280x128_1_0_0_1_n_n_wf : DotDims.WF S1280x1280 S1280x128 S1280x128 [1] [0] [0] [1] [] []
  dot_S2048x128_S128x40_S2048x40_1_0_0_1_n_n_wf : DotDims.WF S2048x128 S128x40 S2048x40 [1] [0] [0] [1] [] []
  dot_S1280x1280_S1280x40_S1280x40_1_0_0_1_n_n_wf : DotDims.WF S1280x1280 S1280x40 S1280x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S10240x512.size a
  hwx0_0 : ∀ i : grid0.Coords, EltTy.bits .f32 = 32 ∨ (Rect.block (s := S10240x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S10240x128.size a
  hwx0_2 : ∀ i : grid0.Coords, EltTy.bits .f32 = 32 ∨ (Rect.block (s := S10240x128) S2048x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1280x1280.size a ≤ S10240x10240.size a
  hwx1_0 : ∀ i : grid1.Coords, EltTy.bits .bf16 = 32 ∨ (Rect.block (s := S10240x10240) S1280x1280.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1280x128.size a ≤ S10240x128.size a
  hwx1_1 : ∀ i : grid1.Coords, EltTy.bits .f32 = 32 ∨ (Rect.block (s := S10240x128) S1280x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1280x128.size a ≤ S10240x128.size a
  hwx1_3 : ∀ i : grid1.Coords, EltTy.bits .f32 = 32 ∨ (Rect.block (s := S10240x128) S1280x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S10240x128.size a
  hwx2_0 : ∀ i : grid2.Coords, EltTy.bits .f32 = 32 ∨ (Rect.block (s := S10240x128) S2048x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x40.size a ≤ S10240x40.size a
  hwx2_2 : ∀ i : grid2.Coords, EltTy.bits .f32 = 32 ∨ (Rect.block (s := S10240x40) S2048x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1280x1280.size a ≤ S10240x10240.size a
  hwx3_0 : ∀ i : grid3.Coords, EltTy.bits .bf16 = 32 ∨ (Rect.block (s := S10240x10240) S1280x1280.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1280x40.size a ≤ S10240x40.size a
  hwx3_1 : ∀ i : grid3.Coords, EltTy.bits .f32 = 32 ∨ (Rect.block (s := S10240x40) S1280x40.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x40.size a ≤ S1x40.size a
  hwx3_2 : ∀ i : grid3.Coords, EltTy.bits .f32 = 32 ∨ (Rect.block (s := S1x40) S1x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1280x40.size a ≤ S10240x40.size a
  hwx3_3 : ∀ i : grid3.Coords, EltTy.bits .f32 = 32 ∨ (Rect.block (s := S10240x40) S1280x40.size (cc3_transform_3 i) (hinb3_3 i)).WholeWords (EltTy.packing .f32)

variable [Facts₀]

def scatter_S104857600_S640000x1_S640000_n_0_0_1 : ScatterDims S104857600 S640000x1 S640000 where
  updateWindowDims := []
  insertedWindowDims := [0]
  scatterDimsToOperandDims := [0]
  indexVectorDim := 1
  wf := scatter_S104857600_S640000x1_S640000_n_0_0_1_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def dot_S1280x1280_S1280x128_S1280x128_1_0_0_1_n_n : DotDims S1280x1280 S1280x128 S1280x128 where
  lhsContracting := [1]
  rhsContracting := [0]
  lhsNonContracting := [0]
  rhsNonContracting := [1]
  lhsBatch := []
  rhsBatch := []
  wf := dot_S1280x1280_S1280x128_S1280x128_1_0_0_1_n_n_wf
def dot_S2048x128_S128x40_S2048x40_1_0_0_1_n_n : DotDims S2048x128 S128x40 S2048x40 where
  lhsContracting := [1]
  rhsContracting := [0]
  lhsNonContracting := [0]
  rhsNonContracting := [1]
  lhsBatch := []
  rhsBatch := []
  wf := dot_S2048x128_S128x40_S2048x40_1_0_0_1_n_n_wf
def dot_S1280x1280_S1280x40_S1280x40_1_0_0_1_n_n : DotDims S1280x1280 S1280x40 S1280x40 where
  lhsContracting := [1]
  rhsContracting := [0]
  lhsNonContracting := [0]
  rhsNonContracting := [1]
  lhsBatch := []
  rhsBatch := []
  wf := dot_S1280x1280_S1280x40_S1280x40_1_0_0_1_n_n_wf

abbrev win0_0 : Pipeline.Window sig grid0 :=
  Pipeline.Window.ofSpec (Memref.whole main_v8) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S1280x1280.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1280x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1280x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v12) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S2048x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v7) S1280x1280.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S1280x40.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v10) S1x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v14) S1280x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S10000x512 : Shape := ⟨2, ![10000, 512]⟩
abbrev S640000 : Shape := ⟨1, ![640000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S10000x128 : Shape := ⟨2, ![10000, 128]⟩
abbrev S640000x1 : Shape := ⟨2, ![640000, 1]⟩
abbrev S_ : Shape := ⟨0, ![]⟩
abbrev S640000x128 : Shape := ⟨2, ![640000, 128]⟩
abbrev S1x128 : Shape := ⟨2, ![1, 128]⟩
abbrev S10000x40 : Shape := ⟨2, ![10000, 40]⟩
abbrev S640000x40 : Shape := ⟨2, ![640000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 66
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S640000, .f32⟩
  | .hbm, ⟨2, _⟩ => ⟨S512x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S640000, .i32⟩
  | .hbm, ⟨7, _⟩ => ⟨S640000, .i32⟩
  | .hbm, ⟨8, _⟩ => ⟨S10000x128, .f32⟩
  | .hbm, ⟨9, _⟩ => ⟨S640000x1, .f32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .f32⟩
  | .hbm, ⟨19, _⟩ => ⟨S640000x128, .f32⟩
  | .hbm, ⟨20, _⟩ => ⟨S640000x128, .f32⟩
  | .hbm, ⟨21, _⟩ => ⟨S_, .f32⟩
  | .hbm, ⟨22, _⟩ => ⟨S10000x128, .f32⟩
  | .hbm, ⟨23, _⟩ => ⟨S640000x1, .i32⟩
  | .hbm, ⟨24, _⟩ => ⟨S10000x128, .f32⟩
  | .hbm, ⟨25, _⟩ => ⟨S1x128, .f32⟩
  | .hbm, ⟨26, _⟩ => ⟨S10000x128, .f32⟩
  | .hbm, ⟨27, _⟩ => ⟨S10000x128, .f32⟩
  | .hbm, ⟨28, _⟩ => ⟨S_, .f32⟩
  | .hbm, ⟨29, _⟩ => ⟨S10000x128, .f32⟩
  | .hbm, ⟨30, _⟩ => ⟨S10000x128, .f32⟩
  | .hbm, ⟨31, _⟩ => ⟨S10000x40, .f32⟩
  | .hbm, ⟨32, _⟩ => ⟨S640000x1, .f32⟩
  | .hbm, ⟨33, _⟩ => ⟨S_, .i32⟩
  | .hbm, ⟨34, _⟩ => ⟨S640000, .i32⟩
  | .hbm, ⟨35, _⟩ => ⟨S640000, .i1⟩
  | .hbm, ⟨36, _⟩ => ⟨S_, .i32⟩
  | .hbm, ⟨37, _⟩ => ⟨S640000, .i32⟩
  | .hbm, ⟨38, _⟩ => ⟨S640000, .i32⟩
  | .hbm, ⟨39, _⟩ => ⟨S640000, .i32⟩
  | .hbm, ⟨40, _⟩ => ⟨S640000x1, .i32⟩
  | .hbm, ⟨41, _⟩ => ⟨S640000x40, .f32⟩
  | .hbm, ⟨42, _⟩ => ⟨S640000x40, .f32⟩
  | .hbm, ⟨43, _⟩ => ⟨S640000x40, .f32⟩
  | .hbm, ⟨44, _⟩ => ⟨S_, .f32⟩
  | .hbm, ⟨45, _⟩ => ⟨S10000x40, .f32⟩
  | .hbm, ⟨46, _⟩ => ⟨S640000x1, .i32⟩
  | .hbm, ⟨47, _⟩ => ⟨S10000x40, .f32⟩
  | .hbm, ⟨48, _⟩ => ⟨S1x40, .f32⟩
  | .hbm, ⟨49, _⟩ => ⟨S10000x40, .f32⟩
  | .hbm, ⟨50, _⟩ => ⟨S10000x40, .f32⟩
  | .hbm, ⟨51, _⟩ => ⟨S_, .f32⟩
  | .hbm, ⟨52, _⟩ => ⟨S10000, .f32⟩
  | .hbm, ⟨53, _⟩ => ⟨S_, .f32⟩
  | .hbm, ⟨54, _⟩ => ⟨S10000, .f32⟩
  | .hbm, ⟨55, _⟩ => ⟨S10000, .f32⟩
  | .hbm, ⟨56, _⟩ => ⟨S10000x1, .f32⟩
  | .hbm, ⟨57, _⟩ => ⟨S10000x40, .f32⟩
  | .hbm, ⟨58, _⟩ => ⟨S10000x40, .f32⟩
  | .hbm, ⟨59, _⟩ => ⟨S10000x40, .f32⟩
  | .hbm, ⟨60, _⟩ => ⟨S_, .f32⟩
  | .hbm, ⟨61, _⟩ => ⟨S10000, .f32⟩
  | .hbm, ⟨62, _⟩ => ⟨S10000x1, .f32⟩
  | .hbm, ⟨63, _⟩ => ⟨S10000x1, .f32⟩
  | .hbm, ⟨64, _⟩ => ⟨S10000x40, .f32⟩
  | .hbm, ⟨65, _⟩ => ⟨S10000x40, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call1_cst : Ref sig .tc := ⟨.hbm, 51, rfl⟩
abbrev main_call1_v0 : Ref sig .tc := ⟨.hbm, 52, rfl⟩
abbrev main_call1_cst_0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_cst_1 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_v35 : Ref sig .tc := ⟨.hbm, 65, rfl⟩

abbrev nD : Nat := 1
abbrev τ : Topo := Topo.v7x

variable {F : FTy → Type} [FloatOps F]

class Facts₀ : Prop where
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S640000x1_S640000x40_0_1 : S640000x1.BroadcastsInDim S640000x40 (![0, 1] : Fin 2 → Fin S640000x40.rank)
  bcast_S_S10000x40 : S_.BroadcastsInDim S10000x40 (![] : Fin 0 → Fin S10000x40.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  reducesTo_S10000x40_S10000_d1 : S10000x40.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x40_0_1 : S10000x1.BroadcastsInDim S10000x40 (![0, 1] : Fin 2 → Fin S10000x40.rank)
  dot_S10000x512_S512x128_S10000x128_1_0_0_1_n_n_wf : DotDims.WF S10000x512 S512x128 S10000x128 [1] [0] [0] [1] [] []
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S10000x128_S128x40_S10000x40_1_0_0_1_n_n_wf : DotDims.WF S10000x128 S128x40 S10000x40 [1] [0] [0] [1] [] []
  gather_S10000x40_S640000x1_S640000x40_1_0_n_n_0_1_140_wf : GatherDims.WF S10000x40 S640000x1 S640000x40 [1] [0] [] [0] [] 1 ![1, 40]
  scatter_S10000x40_S640000x1_S640000x40_1_0_0_1_wf : ScatterDims.WF S10000x40 S640000x1 S640000x40 [1] [0] [0] 1

variable [Facts₀]

def dot_S10000x512_S512x128_S10000x128_1_0_0_1_n_n : DotDims S10000x512 S512x128 S10000x128 where
  lhsContracting := [1]
  rhsContracting := [0]
  lhsNonContracting := [0]
  rhsNonContracting := [1]
  lhsBatch := []
  rhsBatch := []
  wf := dot_S10000x512_S512x128_S10000x128_1_0_0_1_n_n_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf
def gather_S10000x40_S640000x1_S640000x40_1_0_n_n_0_1_140 : GatherDims S10000x40 S640000x1 S640000x40 where
  offsetDims := [1]
  collapsedSliceDims := [0]
  operandBatchingDims := []
  startIndicesBatchingDims := []
  startIndexMap := [0]
  indexVectorDim := 1
  sliceSizes := ![1, 40]
  wf := gather_S10000x40_S640000x1_S640000x40_1_0_n_n_0_1_140_wf
def scatter_S10000x40_S640000x1_S640000x40_1_0_0_1 : ScatterDims S10000x40 S640000x1 S640000x40 where
  updateWindowDims := [1]
  insertedWindowDims := [0]
  scatterDimsToOperandDims := [0]
  indexVectorDim := 1
  wf := scatter_S10000x40_S640000x1_S640000x40_1_0_0_1_wf

class Facts : Prop extends Facts₀ where

variable [Facts]
-- ==== Proof.LibGraph.lean ====
import Idealize.ShloMosaic.PureOps.Ideal
import Idealize.ShloMosaic.Lib.ValueIdx
import Idealize.ShloMosaic.Lib.ValueIdxRank1
import Idealize.ShloMosaic.Lib.StableHlo.Predicate

noncomputable section

open scoped BigOperators

namespace Idealize.ShloMosaic.GraphIdx

open Idealize.ShloMosaic Idealize.ShloMosaic.ValueIdx

/-- A row gather: result row p is the table's row at index p's entry, read signed and clamped into [0, N − 1]. -/
theorem gather_rows_apply {α : Type} {N K n w : Nat} (d : GatherDims ⟨2, ![N, K]⟩ ⟨2, ![n, 1]⟩ ⟨2, ![n, K]⟩)
    (hoff : d.offsetDims = [1]) (hcoll : d.collapsedSliceDims = [0]) (hob : d.operandBatchingDims = [])
    (hsim : d.startIndexMap = [0]) (hivd : d.indexVectorDim = 1)
    (x : (⟨2, ![N, K]⟩ : Shape).Idx → α) (idx : IVec ⟨2, ![n, 1]⟩ w) (p : Fin n) (k : Fin K) (hN : 0 < N) :
    Host.gather d x idx (ix2 p k)
      = x (ix2 (⟨min (idx (ix2 p (0 : Fin 1))).toInt.toNat (N - 1), by omega⟩ : Fin N) k) := by
  have hb : ∀ a : Fin 2, a ∉ d.operandBatchingDims := by intro a; rw [hob]; exact List.not_mem_nil

  have hbatch : ∀ X : Fin 2, X ∈ d.batchDims → ((ix2 p k : (⟨2, ![n, K]⟩ : Shape).Idx) X).val = p.val := by
    intro X hX
    have hX' : X ∉ d.offsetDims := by
      have := hX
      simp only [GatherDims.batchDims, Shape.kept, List.mem_filter, List.mem_finRange, true_and, decide_eq_true_eq] at this
      exact this
    rw [hoff] at hX'
    match X with
    | ⟨0, _⟩ => rfl
    | ⟨1, _⟩ => exact absurd (List.mem_singleton.mpr rfl) hX'
  have hoffs : ∀ X : Fin 2, X ∈ d.offsetDims → ((ix2 p k : (⟨2, ![n, K]⟩ : Shape).Idx) X).val = k.val := by
    intro X hX
    rw [hoff] at hX
    obtain rfl := List.mem_singleton.mp hX
    rfl

  have e0 : (d.operandIdx (ix2 p k) idx 0).val = min (idx (ix2 p (0 : Fin 1))).toInt.toNat (N - 1) := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    simp only [GatherDims.operandIdx, GatherDims.batchCoord_eq_zero _ _ _ (hb _), GatherDims.offCoord_eq_zero _ _ _ hk,
      Nat.add_zero, GatherDims.start, dif_pos hm]
    show min (idx _).toInt.toNat (N - d.sliceSizes 0) = min (idx (ix2 p 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact hbatch _ (List.getElem_mem _)
    | ⟨1, _⟩ =>
      unfold GatherDims.siIdx
      rw [dif_pos (by rw [hivd])]
      apply Fin.ext
      show List.idxOf (0 : Fin 2) d.startIndexMap = 0
      rw [hsim]; simp

  have e1 : (d.operandIdx (ix2 p k) idx 1).val = k.val := by
    have hk : (1 : Fin 2) ∈ d.sKept := by rw [GatherDims.mem_sKept, hcoll, hob]; simp
    have hm : (1 : Fin 2) ∉ d.startIndexMap := by rw [hsim]; simp
    simp only [GatherDims.operandIdx, GatherDims.batchCoord_eq_zero _ _ _ (hb _), Nat.add_zero, GatherDims.start,
      dif_neg hm, Nat.zero_add]
    unfold GatherDims.offCoord
    rw [dif_pos hk]
    exact hoffs _ (List.getElem_mem _)
  unfold Host.gather
  congr 1
  funext a
  apply Fin.ext
  match a with
  | ⟨0, _⟩ => exact e0
  | ⟨1, _⟩ => exact e1

/-- An update row lands on result row i exactly when its index entry, read signed and not clamped, is i. -/
theorem resultIdx_rows_iff {N K n w : Nat} (d : ScatterDims ⟨2, ![N, K]⟩ ⟨2, ![n, 1]⟩ ⟨2, ![n, K]⟩)
    (huw : d.updateWindowDims = [1]) (hiw : d.insertedWindowDims = [0]) (hsd : d.scatterDimsToOperandDims = [0])
    (hivd : d.indexVectorDim = 1) (idx : IVec ⟨2, ![n, 1]⟩ w) (p : Fin n) (k' : Fin K) (i : Fin N) (k : Fin K) :
    d.resultIdx? (ix2 p k') idx = some (ix2 i k) ↔ (idx (ix2 p (0 : Fin 1))).toInt = (i.val : ℤ) ∧ k' = k := by

  have hscat : ∀ X : Fin 2, X ∈ d.uScatter → ((ix2 p k' : (⟨2, ![n, K]⟩ : Shape).Idx) X).val = p.val := by
    intro X hX
    have hX' : X ∉ d.updateWindowDims := by
      have := hX
      simp only [ScatterDims.uScatter, Shape.kept, List.mem_filter, List.mem_finRange, true_and, decide_eq_true_eq] at this
      exact this
    rw [huw] at hX'
    match X with
    | ⟨0, _⟩ => rfl
    | ⟨1, _⟩ => exact absurd (List.mem_singleton.mpr rfl) hX'
  have hwin : ∀ X : Fin 2, X ∈ d.updateWindowDims → ((ix2 p k' : (⟨2, ![n, K]⟩ : Shape).Idx) X).val = k'.val := by
    intro X hX
    rw [huw] at hX
    obtain rfl := List.mem_singleton.mp hX
    rfl
  have hs0 : d.start (ix2 p k') idx 0 = (idx (ix2 p (0 : Fin 1))).toInt := by
    have hm : (0 : Fin 2) ∈ d.scatterDimsToOperandDims := by rw [hsd]; exact List.mem_singleton.mpr rfl
    unfold ScatterDims.start
    rw [dif_pos hm]
    refine congrArg (fun q => (idx q).toInt) ?_
    funext b
    match b with
    | ⟨0, _⟩ =>
      unfold ScatterDims.siIdx
      rw [dif_neg (by rw [hivd]; simp)]
      unfold ScatterDims.siCoord
      apply Fin.ext
      simp only [Fin.val_cast]
      exact hscat _ (List.getElem_mem _)
    | ⟨1, _⟩ =>
      unfold ScatterDims.siIdx
      rw [dif_pos (by rw [hivd])]
      apply Fin.ext
      show List.idxOf (0 : Fin 2) d.scatterDimsToOperandDims = 0
      rw [hsd]; simp
  have hs1 : d.start (ix2 p k') idx 1 = 0 := by
    unfold ScatterDims.start; rw [dif_neg (by rw [hsd]; simp)]
  have hw0 : d.window (ix2 p k') 0 = 0 := by
    unfold ScatterDims.window; rw [dif_neg (by simp [ScatterDims.sKept, Shape.kept, hiw])]
  have hw1 : d.window (ix2 p k') 1 = k'.val := by
    have hk : (1 : Fin 2) ∈ d.sKept := by simp [ScatterDims.sKept, Shape.kept, hiw]
    unfold ScatterDims.window; rw [dif_pos hk]
    exact hwin _ (List.getElem_mem _)
  have hi := i.isLt
  have hk' := k'.isLt
  unfold ScatterDims.resultIdx?
  by_cases h : ∀ a : Fin 2, 0 ≤ d.start (ix2 p k') idx a + d.window (ix2 p k') a ∧
      d.start (ix2 p k') idx a + d.window (ix2 p k') a < (⟨2, ![N, K]⟩ : Shape).size a
  · rw [dif_pos h, Option.some_inj]
    have h0 := h 0
    rw [hs0, hw0] at h0
    constructor
    · intro hf
      have e0 : (d.start (ix2 p k') idx 0 + d.window (ix2 p k') 0).toNat = i.val := congrArg Fin.val (congrFun hf 0)
      have e1 : (d.start (ix2 p k') idx 1 + d.window (ix2 p k') 1).toNat = k.val := congrArg Fin.val (congrFun hf 1)
      rw [hs0, hw0] at e0
      rw [hs1, hw1] at e1
      exact ⟨by omega, Fin.ext (by omega)⟩
    · rintro ⟨hs, rfl⟩
      funext a
      apply Fin.ext
      match a with
      | ⟨0, _⟩ =>
        show (d.start (ix2 p k') idx 0 + d.window (ix2 p k') 0).toNat = i.val
        rw [hs0, hw0]; omega
      | ⟨1, _⟩ =>
        show (d.start (ix2 p k') idx 1 + d.window (ix2 p k') 1).toNat = k'.val
        rw [hs1, hw1]; omega
  · rw [dif_neg h]
    constructor
    · intro hf; exact absurd hf (by simp)
    · rintro ⟨hs, rfl⟩
      exfalso
      apply h
      refine Fin.forall_fin_two.mpr ⟨?_, ?_⟩
      · rw [hs0, hw0]
        show _ ∧ _ < (N : ℤ)
        omega
      · rw [hs1, hw1]
        show _ ∧ _ < (K : ℤ)
        omega

/-- An accumulating row scatter over the extended reals: row i of the result is the operand's row i plus the sum of the update rows whose index is i. -/
theorem scatterAdd_rows_apply {N K n w : Nat} (d : ScatterDims ⟨2, ![N, K]⟩ ⟨2, ![n, 1]⟩ ⟨2, ![n, K]⟩)
    (huw : d.updateWindowDims = [1]) (hiw : d.insertedWindowDims = [0]) (hsd : d.scatterDimsToOperandDims = [0])
    (hivd : d.indexVectorDim = 1)
    (x : FVec Ideal ⟨2, ![N, K]⟩ .f32) (idx : IVec ⟨2, ![n, 1]⟩ w) (upd : FVec Ideal ⟨2, ![n, K]⟩ .f32) (i : Fin N) (k : Fin K) :
    (Host.scatterAdd (F := Ideal) d x idx upd (ix2 i k) : EReal)
      = (x (ix2 i k) : EReal) + ∑ p : Fin n, if (idx (ix2 p (0 : Fin 1))).toInt = (i.val : ℤ) then (upd (ix2 p k) : EReal) else 0 := by
  show Ideal.hostScatterAdd d x idx upd (ix2 i k) = _
  unfold Ideal.hostScatterAdd
  congr 1
  rw [Finset.sum_filter, sum_idx2]
  refine Finset.sum_congr rfl (fun p _ => ?_)
  simp only [resultIdx_rows_iff d huw hiw hsd hivd idx p _ i k]
  by_cases hs : (idx (ix2 p (0 : Fin 1))).toInt = (i.val : ℤ)
  · simp only [hs, true_and, if_true]
    rw [Finset.sum_ite_eq' Finset.univ k (fun b => (upd (ix2 p b) : EReal)), if_pos (Finset.mem_univ _)]
  · simp only [hs, false_and, if_false, Finset.sum_const_zero]

/-- A sum over the indices of a rank-1 shape is the sum over its one coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- An update entry lands on result entry i exactly when its index entry, read signed and not clamped, is i. -/
theorem resultIdx_vec_iff {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (p : Fin n) (i : Fin N) :
    d.resultIdx? (ix1 p) idx = some (ix1 i) ↔ (idx (ix2 p (0 : Fin 1))).toInt = (i.val : ℤ) := by
  have hscat : ∀ X : Fin 1, ((ix1 p : (⟨1, ![n]⟩ : Shape).Idx) X).val = p.val := by
    intro X
    obtain rfl : X = 0 := Subsingleton.elim _ _
    rfl
  have hs0 : d.start (ix1 p) idx 0 = (idx (ix2 p (0 : Fin 1))).toInt := by
    have hm : (0 : Fin 1) ∈ d.scatterDimsToOperandDims := by rw [hsd]; exact List.mem_singleton.mpr rfl
    unfold ScatterDims.start
    rw [dif_pos hm]
    refine congrArg (fun q => (idx q).toInt) ?_
    funext b
    match b with
    | ⟨0, _⟩ =>
      unfold ScatterDims.siIdx
      rw [dif_neg (by rw [hivd]; simp)]
      unfold ScatterDims.siCoord
      apply Fin.ext
      simp only [Fin.val_cast]
      exact hscat _
    | ⟨1, _⟩ =>
      unfold ScatterDims.siIdx
      rw [dif_pos (by rw [hivd])]
      apply Fin.ext
      show List.idxOf (0 : Fin 1) d.scatterDimsToOperandDims = 0
      rw [hsd]; simp
  have hw0 : d.window (ix1 p) 0 = 0 := by
    unfold ScatterDims.window; rw [dif_neg (by simp [ScatterDims.sKept, Shape.kept, hiw])]
  have hi := i.isLt
  unfold ScatterDims.resultIdx?
  by_cases h : ∀ a : Fin 1, 0 ≤ d.start (ix1 p) idx a + d.window (ix1 p) a ∧
      d.start (ix1 p) idx a + d.window (ix1 p) a < (⟨1, ![N]⟩ : Shape).size a
  · rw [dif_pos h, Option.some_inj]
    have h0 := h 0
    rw [hs0, hw0] at h0
    constructor
    · intro hf
      have e0 : (d.start (ix1 p) idx 0 + d.window (ix1 p) 0).toNat = i.val := congrArg Fin.val (congrFun hf 0)
      rw [hs0, hw0] at e0
      omega
    · intro hs
      funext a
      apply Fin.ext
      obtain rfl : a = 0 := Subsingleton.elim _ _
      show (d.start (ix1 p) idx 0 + d.window (ix1 p) 0).toNat = i.val
      rw [hs0, hw0]; omega
  · rw [dif_neg h]
    constructor
    · intro hf; exact absurd hf (by simp)
    · intro hs
      exfalso
      apply h
      intro a
      obtain rfl : a = 0 := Subsingleton.elim _ _
      rw [hs0, hw0]
      show _ ∧ _ < (N : ℤ)
      omega

/-- An accumulating scatter of scalars: entry i of the result is the operand's entry i plus the sum of the updates whose index is i. -/
theorem scatterAdd_vec_apply {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (x : FVec Ideal ⟨1, ![N]⟩ .f32) (idx : IVec ⟨2, ![n, 1]⟩ w) (upd : FVec Ideal ⟨1, ![n]⟩ .f32) (i : Fin N) :
    (Host.scatterAdd (F := Ideal) d x idx upd (ix1 i) : EReal)
      = (x (ix1 i) : EReal) + ∑ p : Fin n, if (idx (ix2 p (0 : Fin 1))).toInt = (i.val : ℤ) then (upd (ix1 p) : EReal) else 0 := by
  show Ideal.hostScatterAdd d x idx upd (ix1 i) = _
  unfold Ideal.hostScatterAdd
  congr 1
  rw [Finset.sum_filter, sum_idx1]
  refine Finset.sum_congr rfl (fun p _ => ?_)
  simp only [resultIdx_vec_iff d huw hiw hsd hivd idx p i]

end Idealize.ShloMosaic.GraphIdx

end
-- ==== Proof.Spec.lean ====
import Idealize.ShloMosaic.PureOps.Ideal

noncomputable section

open scoped BigOperators

namespace Cert.Gcn

open Idealize.ShloMosaic

def rowMax (z : Fin 40 → EReal) : EReal := (Finset.univ : Finset (Fin 40)).fold max ⊥ z

-- The row minus its maximum, minus the log of the sum of the shifted row's exponentials.
def logSoftmax (z : Fin 40 → EReal) (c : Fin 40) : EReal :=
  (z c - rowMax z) - Ideal.log (∑ c' : Fin 40, Ideal.exp (z c' - rowMax z))

section
variable (x : Fin 10000 → Fin 512 → EReal) (w : Fin 640000 → EReal) (W1 : Fin 512 → Fin 128 → EReal)
  (b1 : Fin 128 → EReal) (W2 : Fin 128 → Fin 40 → EReal) (b2 : Fin 40 → EReal)

section Edge
variable (srcN : Fin 640000 → Fin 10000) (dst : Fin 640000 → ℤ)

def xw1 (i : Fin 10000) (d : Fin 128) : EReal := ∑ k : Fin 512, x i k * W1 k d

-- Edge form: a layer sums, over the edges into node i, the edge weight times the source node's row.
def agg1 (i : Fin 10000) (d : Fin 128) : EReal :=
  ∑ e : Fin 640000, if dst e = (i.val : ℤ) then w e * xw1 x W1 (srcN e) d else 0

def hid (i : Fin 10000) (d : Fin 128) : EReal := max (agg1 x w W1 srcN dst i d + b1 d) 0

def hw2 (i : Fin 10000) (c : Fin 40) : EReal := ∑ d : Fin 128, hid x w W1 b1 srcN dst i d * W2 d c

def agg2 (i : Fin 10000) (c : Fin 40) : EReal :=
  ∑ e : Fin 640000, if dst e = (i.val : ℤ) then w e * hw2 x w W1 b1 W2 srcN dst (srcN e) c else 0

def logits (i : Fin 10000) (c : Fin 40) : EReal := agg2 x w W1 b1 W2 srcN dst i c + b2 c

def out (i : Fin 10000) (c : Fin 40) : EReal := logSoftmax (logits x w W1 b1 W2 b2 srcN dst i) c

end Edge

section Dense
variable (flat : Fin 640000 → ℤ)

-- Dense form: entry (i, j) sums the weights of the edges whose flat cell is i · 10240 + j.
def adj (i j : Fin 10240) : EReal :=
  ∑ e : Fin 640000, if flat e = ((i.val * 10240 + j.val : ℕ) : ℤ) then w e else 0

def xpad (i : Fin 10240) (k : Fin 512) : EReal := if h : i.val < 10000 then x ⟨i.val, h⟩ k else 0

def xw1K (i : Fin 10240) (d : Fin 128) : EReal := ∑ k : Fin 512, xpad x i k * W1 k d

def blkRow (kb : Fin 8) (j : Fin 1280) : Fin 10240 := ⟨1280 * kb.val + j.val, by omega⟩

def part1 (i : Fin 10240) (d : Fin 128) (kb : Fin 8) : EReal :=
  ∑ j : Fin 1280, adj w flat i (blkRow kb j) * xw1K x W1 (blkRow kb j) d

-- The dense product accumulated over the first n blocks of 1280 source rows.
def acc1 (i : Fin 10240) (d : Fin 128) : ℕ → EReal
  | 0 => 0
  | n + 1 => acc1 i d n + (if h : n < 8 then part1 x w W1 flat i d ⟨n, h⟩ else 0)

def hidK (i : Fin 10240) (d : Fin 128) : EReal := max (acc1 x w W1 flat i d 8 + b1 d) 0

def hw2K (i : Fin 10240) (c : Fin 40) : EReal := ∑ d : Fin 128, hidK x w W1 b1 flat i d * W2 d c

def part2 (i : Fin 10240) (c : Fin 40) (kb : Fin 8) : EReal :=
  ∑ j : Fin 1280, adj w flat i (blkRow kb j) * hw2K x w W1 b1 W2 flat (blkRow kb j) c

def acc2 (i : Fin 10240) (c : Fin 40) : ℕ → EReal
  | 0 => 0
  | n + 1 => acc2 i c n + (if h : n < 8 then part2 x w W1 b1 W2 flat i c ⟨n, h⟩ else 0)

def logitsK (i : Fin 10240) (c : Fin 40) : EReal := acc2 x w W1 b1 W2 flat i c 8 + b2 c

def outK (i : Fin 10240) (c : Fin 40) : EReal := logSoftmax (logitsK x w W1 b1 W2 b2 flat i) c

end Dense

end

end Cert.Gcn

end
-- ==== Proof.PreFacts.lean ====
import proofs.«418084_j71923522339154_1_alg».proof.Pre_finite_inputs
import Idealize.ShloMosaic.PureOps.Ideal
import Idealize.ShloMosaic.Lib.ValueIdx
import Idealize.ShloMosaic.Lib.StableHlo.Predicate
import Idealize.ShloMosaic.Lib.ReduceAll

noncomputable section

namespace Cert.PreFacts

open Idealize.ShloMosaic
open Cert.Pre_finite_inputs (S_ S10000x512 S640000 S512x128 S128 S128x40 S40)

instance : Subsingleton S_.Idx := ⟨fun a b => funext fun d => d.elim0⟩

theorem slt_zero_false (a : BitVec 32) (ha : 0 ≤ a.toInt) : BitVec.slt a 0#32 = false := by
  have h0 : (0#32 : BitVec 32).toInt = 0 := by decide
  rw [BitVec.slt, h0, decide_eq_false_iff_not]
  omega

theorem cmpi_slt_zero (a : BitVec 32) (ha : 0 ≤ a.toInt) : IntOp.cmpi .slt a 0#32 = 0#1 := by
  show BitVec.ofBool (BitVec.slt a 0#32) = 0#1
  rw [slt_zero_false a ha]; rfl

theorem scalar_cmpi_slt_zero (a : BitVec 32) (ha : 0 ≤ a.toInt) : Scalar.cmpi .slt a 0#32 = 0#1 :=
  cmpi_slt_zero a ha

theorem select_slt_zero (a n : BitVec 32) (ha : 0 ≤ a.toInt) :
    Scalar.select (Scalar.cmpi .slt a 0#32) (IntOp.addi a n) a = a := by
  rw [scalar_cmpi_slt_zero a ha]; exact if_neg (by decide)

theorem bmod32 {n : Int} (h₁ : -2 ^ 31 ≤ n) (h₂ : n < 2 ^ 31) : n.bmod (2 ^ 32) = n :=
  Int.bmod_eq_of_le (by omega) (by omega)

-- For a, b in [0, 10000) the word a · 10240 + b does not wrap.
theorem flat_toInt (a b : BitVec 32) (ha : 0 ≤ a.toInt ∧ a.toInt < 10000) (hb : 0 ≤ b.toInt ∧ b.toInt < 10000) :
    (a * 10240#32 + b).toInt = a.toInt * 10240 + b.toInt := by
  have h10 : (10240#32 : BitVec 32).toInt = 10240 := by decide
  obtain ⟨ha0, ha1⟩ := ha
  obtain ⟨hb0, hb1⟩ := hb
  rw [BitVec.toInt_add, BitVec.toInt_mul, h10, bmod32 (n := a.toInt * 10240) (by omega) (by omega),
    bmod32 (by omega) (by omega)]

theorem real_of_abs_lt_top (x : EReal) (h : Ideal.cmp .olt (max x (-x)) (Ideal.ofBits .f32 0x7F800000#32) = 1#1) :
    ∃ r : ℝ, x = (r : EReal) := by
  have htop : Ideal.ofBits .f32 0x7F800000#32 = (⊤ : EReal) := by simp [Ideal.ofBits, Ideal.ieee]
  rw [htop] at h
  have hlt : max x (-x) < ⊤ := by
    simpa [Ideal.cmp, StableHlo.Predicate.ofBool_eq_one_iff] using h
  induction x using EReal.rec with
  | bot => simp at hlt
  | coe r => exact ⟨r, rfl⟩
  | top => simp at hlt

theorem float_all {s : Shape} {axes : List (Fin s.rank)} (a : FVec Ideal s .f32)
    (hb : S_.BroadcastsInDim s (![] : Fin 0 → Fin s.rank)) (hr : s.ReducesTo axes S_) (h0 : 0 < S_.numel) (j0 : S_.Idx)
    (e : Host.reduce IntOp.andi
          (cmpf (F := Ideal) .olt (Host.absf a) (broadcastInDim s ![] hb (constant (F := Ideal) S_ .f32 0x7F800000#32)))
          (constantI S_ 1 1#1) hr h0 j0 = 1#1)
    (j : s.Idx) : ∃ r : ℝ, a j = (r : EReal) :=
  real_of_abs_lt_top (a j) (Host.reduce_andi_all _ _ hr h0 j0 e j)

theorem int_all {s : Shape} {axes : List (Fin s.rank)} (a : IVec s 32)
    (hb : S_.BroadcastsInDim s (![] : Fin 0 → Fin s.rank)) (hr : s.ReducesTo axes S_) (h0 : 0 < S_.numel) (j0 : S_.Idx)
    (e : Host.reduce IntOp.andi
          (andi (cmpi .sge a (broadcastInDim s ![] hb (constantI S_ 32 0#32)))
                (cmpi .slt a (broadcastInDim s ![] hb (constantI S_ 32 10000#32))))
          (constantI S_ 1 1#1) hr h0 j0 = 1#1)
    (j : s.Idx) : 0 ≤ (a j).toInt ∧ (a j).toInt < 10000 := by
  have hj := Host.reduce_andi_all _ _ hr h0 j0 e j
  have hj' : IntOp.andi (IntOp.cmpi .sge (a j) 0#32) (IntOp.cmpi .slt (a j) 10000#32) = 1#1 := hj
  obtain ⟨h1, h2⟩ := IntOp.andi_eq_one.1 hj'
  have h1' := IntOp.cmpi_sge.1 h1
  have h2' := IntOp.cmpi_slt.1 h2
  rw [show (0#32 : BitVec 32).toInt = 0 from by decide] at h1'
  rw [show (10000#32 : BitVec 32).toInt = 10000 from by decide] at h2'
  exact ⟨h1', h2'⟩

theorem andi_apply_eq_one {s : Shape} (x y : IVec s 1) (i : s.Idx) : andi x y i = 1#1 ↔ x i = 1#1 ∧ y i = 1#1 :=
  IntOp.andi_eq_one

-- The precondition decoded: every float entry is a real number, every index lies in [0, 10000).
theorem of_pre [Cert.Pre_finite_inputs.Facts]
    (a0 : FVec Ideal S10000x512 .f32) (a1 : FVec Ideal S640000 .f32)
    (a2 : FVec Ideal S512x128 .f32) (a3 : FVec Ideal S128 .f32)
    (a4 : FVec Ideal S128x40 .f32) (a5 : FVec Ideal S40 .f32)
    (a6 a7 : IVec S640000 32)
    (h : Cert.Pre_finite_inputs.fn (F := Ideal) a0 a1 a2 a3 a4 a5 a6 a7 = fun _ => 1#1) :
    (∀ j, ∃ r : ℝ, a0 j = (r : EReal)) ∧ (∀ j, ∃ r : ℝ, a1 j = (r : EReal)) ∧ (∀ j, ∃ r : ℝ, a2 j = (r : EReal))
    ∧ (∀ j, ∃ r : ℝ, a3 j = (r : EReal)) ∧ (∀ j, ∃ r : ℝ, a4 j = (r : EReal)) ∧ (∀ j, ∃ r : ℝ, a5 j = (r : EReal))
    ∧ (∀ j, 0 ≤ (a6 j).toInt ∧ (a6 j).toInt < 10000) ∧ (∀ j, 0 ≤ (a7 j).toInt ∧ (a7 j).toInt < 10000) := by
  have h0 := congrFun h ValueIdx.ix0
  dsimp only [Cert.Pre_finite_inputs.fn, Cert.Pre_finite_inputs.fn_part1, Cert.Pre_finite_inputs.fn_part2] at h0
  simp only [andi_apply_eq_one] at h0
  obtain ⟨⟨⟨⟨⟨⟨⟨e0, e1⟩, e2⟩, e3⟩, e4⟩, e5⟩, e6⟩, e7⟩ := h0
  exact ⟨float_all a0 _ _ _ _ e0, float_all a1 _ _ _ _ e1, float_all a2 _ _ _ _ e2, float_all a3 _ _ _ _ e3,
    float_all a4 _ _ _ _ e4, float_all a5 _ _ _ _ e5, int_all a6 _ _ _ _ e6, int_all a7 _ _ _ _ e7⟩

end Cert.PreFacts

end
-- ==== Proof.RefValue.lean ====
import proofs.«418084_j71923522339154_1_alg».proof.Proof.RefRead
import proofs.«418084_j71923522339154_1_alg».proof.Proof.LibGraph
import proofs.«418084_j71923522339154_1_alg».proof.Proof.Spec
import proofs.«418084_j71923522339154_1_alg».proof.Proof.PreFacts
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.ReferenceIdeal.RefValue

open Idealize.ShloMosaic Idealize.ShloMosaic.ValueIdx Cert.ReferenceIdeal

def srcN (a6 : IVec S640000 32) (e : Fin 640000) : Fin 10000 :=
  ⟨min ((ReadP.val_main_v6 (F := Ideal) a6) (ix1 e)).toInt.toNat 9999, by omega⟩

section Stages

variable (x0 : (⟨S10000x512, .f32⟩ : BufTy).Contents (Elt Ideal)) (x1 : (⟨S640000, .f32⟩ : BufTy).Contents (Elt Ideal))
  (x2 : (⟨S512x128, .f32⟩ : BufTy).Contents (Elt Ideal)) (x3 : (⟨S128, .f32⟩ : BufTy).Contents (Elt Ideal))
  (x4 : (⟨S128x40, .f32⟩ : BufTy).Contents (Elt Ideal)) (x5 : (⟨S40, .f32⟩ : BufTy).Contents (Elt Ideal))
  (x6 x7 : (⟨S640000, .i32⟩ : BufTy).Contents (Elt Ideal))

abbrev X : Fin 10000 → Fin 512 → EReal := fun i k => x0 (ix2 i k)

abbrev Wt : Fin 640000 → EReal := fun e => x1 (ix1 e)

abbrev M1 : Fin 512 → Fin 128 → EReal := fun k d => x2 (ix2 k d)

abbrev B1 : Fin 128 → EReal := fun d => x3 (ix1 d)

abbrev M2 : Fin 128 → Fin 40 → EReal := fun d c => x4 (ix2 d c)

abbrev B2 : Fin 40 → EReal := fun c => x5 (ix1 c)

abbrev Dst : Fin 640000 → ℤ := fun e => (x7 (ix1 e)).toInt

theorem v0_at (i : Fin 10000) (d : Fin 128) :
    ReadP.val_main_v0 (F := Ideal) x0 x2 (ix2 i d) = Cert.Gcn.xw1 (X x0) (M1 x2) i d := by
  refine (ReadP.val_main_v0_apply x0 x2 (ix2 i d)).trans ?_
  unfold Cert.Gcn.xw1
  refine Finset.sum_congr rfl fun k _ => ?_
  have el : ReadP.lidx_main_v0 (ix2 i d) k = ix2 i k :=
    funext fun a => Fin.ext (by match a with | ⟨0, _⟩ => rfl | ⟨1, _⟩ => rfl)
  have er : ReadP.ridx_main_v0 (ix2 i d) k = ix2 k d :=
    funext fun a => Fin.ext (by match a with | ⟨0, _⟩ => rfl | ⟨1, _⟩ => rfl)
  rw [el, er]

theorem v7_at (e : Fin 640000) :
    ReadP.val_main_v7 (F := Ideal) x6 (ix2 e (0 : Fin 1)) = ReadP.val_main_v6 (F := Ideal) x6 (ix1 e) := by
  refine (ReadP.val_main_v7_apply x6 (ix2 e (0 : Fin 1))).trans ?_
  exact congrArg _ (funext fun a => Fin.ext (by match a with | ⟨0, _⟩ => rfl))

theorem v8_at (e : Fin 640000) (d : Fin 128) :
    ReadP.val_main_v8 (F := Ideal) x0 x2 x6 (ix2 e d) = ReadP.val_main_v0 (F := Ideal) x0 x2 (ix2 (srcN x6 e) d) := by
  unfold ReadP.val_main_v8
  generalize ReadP.val_main_v0 (F := Ideal) x0 x2 = T
  refine (GraphIdx.gather_rows_apply gather_S10000x128_S640000x1_S640000x128_1_0_n_n_0_1_1128 rfl rfl rfl rfl rfl
    T (ReadP.val_main_v7 (F := Ideal) x6) e d (by decide)).trans ?_
  refine congrArg T (congrArg (fun r => ix2 r d) (Fin.ext ?_))
  show min (ReadP.val_main_v7 (F := Ideal) x6 (ix2 e (0 : Fin 1))).toInt.toNat (10000 - 1) = min _ 9999
  rw [v7_at]

theorem v9_at (e : Fin 640000) (d : Fin 128) :
    ReadP.val_main_v9 (F := Ideal) x1 (ix2 e d) = Wt x1 e := by
  refine (ReadP.val_main_v9_apply x1 (ix2 e d)).trans ?_
  refine (ReadP.val_main_v1_apply x1 _).trans ?_
  exact congrArg x1 (funext fun a => Fin.ext (by match a with | ⟨0, _⟩ => rfl))

theorem v10_at (e : Fin 640000) (d : Fin 128) :
    ReadP.val_main_v10 (F := Ideal) x0 x1 x2 x6 (ix2 e d)
      = Wt x1 e * Cert.Gcn.xw1 (X x0) (M1 x2) (srcN x6 e) d := by
  refine (ReadP.val_main_v10_apply x0 x1 x2 x6 (ix2 e d)).trans ?_
  rw [v9_at, v8_at, v0_at]
  rfl

theorem v12_at (e : Fin 640000) :
    ReadP.val_main_v12 (F := Ideal) x7 (ix2 e (0 : Fin 1)) = x7 (ix1 e) := by
  refine (ReadP.val_main_v12_apply x7 (ix2 e (0 : Fin 1))).trans ?_
  exact congrArg x7 (funext fun a => Fin.ext (by match a with | ⟨0, _⟩ => rfl))

theorem v11_at (j : S10000x128.Idx) : ReadP.val_main_v11 (F := Ideal) j = (0 : EReal) := by
  refine (ReadP.val_main_v11_apply j).trans ?_
  exact Ideal.ofBits_zero_f32

theorem v13_at (i : Fin 10000) (d : Fin 128) :
    ReadP.val_main_v13 (F := Ideal) x0 x1 x2 x6 x7 (ix2 i d)
      = Cert.Gcn.agg1 (X x0) (Wt x1) (M1 x2) (srcN x6) (Dst x7) i d := by
  unfold ReadP.val_main_v13
  refine (GraphIdx.scatterAdd_rows_apply scatter_S10000x128_S640000x1_S640000x128_1_0_0_1 rfl rfl rfl rfl
    (ReadP.val_main_v11 (F := Ideal)) (ReadP.val_main_v12 (F := Ideal) x7)
    (ReadP.val_main_v10 (F := Ideal) x0 x1 x2 x6) i d).trans ?_
  rw [v11_at, zero_add]
  unfold Cert.Gcn.agg1
  refine Finset.sum_congr rfl fun e _ => ?_
  rw [v12_at, v10_at]

theorem v15_at (i : Fin 10000) (d : Fin 128) :
    ReadP.val_main_v15 (F := Ideal) x3 (ix2 i d) = B1 x3 d := by
  refine (ReadP.val_main_v15_apply x3 (ix2 i d)).trans ?_
  refine (ReadP.val_main_v14_apply x3 _).trans ?_
  exact congrArg x3 (funext fun a => Fin.ext (by match a with | ⟨0, _⟩ => rfl))

theorem call0_v0_at (j : S10000x128.Idx) : ReadP.val_main_call0_v0 (F := Ideal) j = (0 : EReal) := by
  refine (ReadP.val_main_call0_v0_apply j).trans ?_
  exact Ideal.ofBits_zero_f32

theorem v17_at (i : Fin 10000) (d : Fin 128) :
    ReadP.val_main_v17 (F := Ideal) x0 x1 x2 x3 x6 x7 (ix2 i d)
      = Cert.Gcn.hid (X x0) (Wt x1) (M1 x2) (B1 x3) (srcN x6) (Dst x7) i d := by
  refine (ReadP.val_main_v17_apply x0 x1 x2 x3 x6 x7 (ix2 i d)).trans ?_
  rw [call0_v0_at]
  refine (congrArg (fun t => FloatOps.maximumf (F := Ideal) (φ := .f32) t (0 : EReal))
    (ReadP.val_main_v16_apply x0 x1 x2 x3 x6 x7 (ix2 i d))).trans ?_
  rw [v13_at, v15_at]
  rfl

theorem v18_at (i : Fin 10000) (c : Fin 40) :
    ReadP.val_main_v18 (F := Ideal) x0 x1 x2 x3 x4 x6 x7 (ix2 i c)
      = Cert.Gcn.hw2 (X x0) (Wt x1) (M1 x2) (B1 x3) (M2 x4) (srcN x6) (Dst x7) i c := by
  refine (ReadP.val_main_v18_apply x0 x1 x2 x3 x4 x6 x7 (ix2 i c)).trans ?_
  unfold Cert.Gcn.hw2
  refine Finset.sum_congr rfl fun k _ => ?_
  have el : ReadP.lidx_main_v18 (ix2 i c) k = ix2 i k :=
    funext fun a => Fin.ext (by match a with | ⟨0, _⟩ => rfl | ⟨1, _⟩ => rfl)
  have er : ReadP.ridx_main_v18 (ix2 i c) k = ix2 k c :=
    funext fun a => Fin.ext (by match a with | ⟨0, _⟩ => rfl | ⟨1, _⟩ => rfl)
  rw [el, er, v17_at]

theorem v24_eq : ReadP.val_main_v24 (F := Ideal) x6 = ReadP.val_main_v6 (F := Ideal) x6 := rfl

theorem v25_at (e : Fin 640000) :
    ReadP.val_main_v25 (F := Ideal) x6 (ix2 e (0 : Fin 1)) = ReadP.val_main_v6 (F := Ideal) x6 (ix1 e) := by
  refine (ReadP.val_main_v25_apply x6 (ix2 e (0 : Fin 1))).trans ?_
  rw [v24_eq]
  exact congrArg _ (funext fun a => Fin.ext (by match a with | ⟨0, _⟩ => rfl))

theorem v26_at (e : Fin 640000) (c : Fin 40) :
    ReadP.val_main_v26 (F := Ideal) x0 x1 x2 x3 x4 x6 x7 (ix2 e c)
      = ReadP.val_main_v18 (F := Ideal) x0 x1 x2 x3 x4 x6 x7 (ix2 (srcN x6 e) c) := by
  unfold ReadP.val_main_v26
  generalize ReadP.val_main_v18 (F := Ideal) x0 x1 x2 x3 x4 x6 x7 = T
  refine (GraphIdx.gather_rows_apply gather_S10000x40_S640000x1_S640000x40_1_0_n_n_0_1_140 rfl rfl rfl rfl rfl
    T (ReadP.val_main_v25 (F := Ideal) x6) e c (by decide)).trans ?_
  refine congrArg T (congrArg (fun r => ix2 r c) (Fin.ext ?_))
  show min (ReadP.val_main_v25 (F := Ideal) x6 (ix2 e (0 : Fin 1))).toInt.toNat (10000 - 1) = min _ 9999
  rw [v25_at]

theorem v27_at (e : Fin 640000) (c : Fin 40) :
    ReadP.val_main_v27 (F := Ideal) x1 (ix2 e c) = Wt x1 e := by
  refine (ReadP.val_main_v27_apply x1 (ix2 e c)).trans ?_
  refine (ReadP.val_main_v19_apply x1 _).trans ?_
  exact congrArg x1 (funext fun a => Fin.ext (by match a with | ⟨0, _⟩ => rfl))

theorem v28_at (e : Fin 640000) (c : Fin 40) :
    ReadP.val_main_v28 (F := Ideal) x0 x1 x2 x3 x4 x6 x7 (ix2 e c)
      = Wt x1 e * Cert.Gcn.hw2 (X x0) (Wt x1) (M1 x2) (B1 x3) (M2 x4) (srcN x6) (Dst x7) (srcN x6 e) c := by
  refine (ReadP.val_main_v28_apply x0 x1 x2 x3 x4 x6 x7 (ix2 e c)).trans ?_
  rw [v27_at, v26_at, v18_at]
  rfl

theorem v30_at (e : Fin 640000) :
    ReadP.val_main_v30 (F := Ideal) x7 (ix2 e (0 : Fin 1)) = x7 (ix1 e) := by
  refine (ReadP.val_main_v30_apply x7 (ix2 e (0 : Fin 1))).trans ?_
  exact congrArg x7 (funext fun a => Fin.ext (by match a with | ⟨0, _⟩ => rfl))

theorem v29_at (j : S10000x40.Idx) : ReadP.val_main_v29 (F := Ideal) j = (0 : EReal) := by
  refine (ReadP.val_main_v29_apply j).trans ?_
  exact Ideal.ofBits_zero_f32

theorem v31_at (i : Fin 10000) (c : Fin 40) :
    ReadP.val_main_v31 (F := Ideal) x0 x1 x2 x3 x4 x6 x7 (ix2 i c)
      = Cert.Gcn.agg2 (X x0) (Wt x1) (M1 x2) (B1 x3) (M2 x4) (srcN x6) (Dst x7) i c := by
  unfold ReadP.val_main_v31
  refine (GraphIdx.scatterAdd_rows_apply scatter_S10000x40_S640000x1_S640000x40_1_0_0_1 rfl rfl rfl rfl
    (ReadP.val_main_v29 (F := Ideal)) (ReadP.val_main_v30 (F := Ideal) x7)
    (ReadP.val_main_v28 (F := Ideal) x0 x1 x2 x3 x4 x6 x7) i c).trans ?_
  rw [v29_at, zero_add]
  unfold Cert.Gcn.agg2
  refine Finset.sum_congr rfl fun e _ => ?_
  rw [v30_at, v28_at]

theorem v33_at (i : Fin 10000) (c : Fin 40) :
    ReadP.val_main_v33 (F := Ideal) x5 (ix2 i c) = B2 x5 c := by
  refine (ReadP.val_main_v33_apply x5 (ix2 i c)).trans ?_
  refine (ReadP.val_main_v32_apply x5 _).trans ?_
  exact congrArg x5 (funext fun a => Fin.ext (by match a with | ⟨0, _⟩ => rfl))

theorem v34_at (i : Fin 10000) (c : Fin 40) :
    ReadP.val_main_v34 (F := Ideal) x0 x1 x2 x3 x4 x5 x6 x7 (ix2 i c)
      = Cert.Gcn.logits (X x0) (Wt x1) (M1 x2) (B1 x3) (M2 x4) (B2 x5) (srcN x6) (Dst x7) i c := by
  refine (ReadP.val_main_v34_apply x0 x1 x2 x3 x4 x5 x6 x7 (ix2 i c)).trans ?_
  rw [v31_at, v33_at]
  rfl

theorem ofBits_neg_inf_f32 : Ideal.ofBits .f32 0xFF800000#32 = (⊥ : EReal) := by simp [Ideal.ofBits, Ideal.ieee]

abbrev Z (i : Fin 10000) : Fin 40 → EReal :=
  Cert.Gcn.logits (X x0) (Wt x1) (M1 x2) (B1 x3) (M2 x4) (B2 x5) (srcN x6) (Dst x7) i

theorem red_h : Shape.Reduces S10000x40 [1] S10000 := by decide

theorem lift_eq (i : Fin 10000) (k : Fin 40) : red_h.lift (ix1 i) k = ix2 i k :=
  funext fun a => Fin.ext (by match a with | ⟨0, _⟩ => rfl | ⟨1, _⟩ => rfl)

theorem reduce_max_row (y : S10000x40.Idx → EReal) (init : S_.Idx → EReal) (i : Fin 10000) :
    Host.reduce (FloatOps.maximumf (F := Ideal) (φ := .f32)) y init Gen.reducesTo_S10000x40_S10000_d1 Gen.h_S_ (ix1 i)
      = (Finset.univ : Finset (Fin 40)).fold max (init (Shape.Idx.first Gen.h_S_)) (fun k => y (ix2 i k)) := by
  refine (Host.reduce_eq_fold_single (FloatOps.maximumf (F := Ideal) (φ := .f32)) y init _ red_h _ (ix1 i)).trans ?_
  have hf : (y ∘ red_h.lift (ix1 i)) = fun k : Fin 40 => y (ix2 i k) :=
    funext fun k => congrArg y (lift_eq i k)
  exact congrArg (fun f : Fin 40 → EReal => (Finset.univ : Finset (Fin 40)).fold max (init (Shape.Idx.first Gen.h_S_)) f) hf

theorem call1_v0_at (i : Fin 10000) :
    ReadP.val_main_call1_v0 (F := Ideal) x0 x1 x2 x3 x4 x5 x6 x7 (ix1 i)
      = Cert.Gcn.rowMax (Z x0 x1 x2 x3 x4 x5 x6 x7 i) := by
  unfold ReadP.val_main_call1_v0
  refine (reduce_max_row _ _ i).trans ?_
  have hi : ReadP.val_main_call1_cst (F := Ideal) (Shape.Idx.first Gen.h_S_) = (⊥ : EReal) :=
    (ReadP.val_main_call1_cst_apply _).trans ofBits_neg_inf_f32
  have hf : (fun k : Fin 40 => ReadP.val_main_v34 (F := Ideal) x0 x1 x2 x3 x4 x5 x6 x7 (ix2 i k))
      = Z x0 x1 x2 x3 x4 x5 x6 x7 i := funext fun k => v34_at x0 x1 x2 x3 x4 x5 x6 x7 i k
  rw [hi, hf]
  rfl

theorem call1_v1_at (j : S10000.Idx) : ReadP.val_main_call1_v1 (F := Ideal) j = (⊥ : EReal) := by
  refine (ReadP.val_main_call1_v1_apply j).trans ?_
  exact ofBits_neg_inf_f32

theorem call1_v2_at (i : Fin 10000) :
    ReadP.val_main_call1_v2 (F := Ideal) x0 x1 x2 x3 x4 x5 x6 x7 (ix1 i)
      = Cert.Gcn.rowMax (Z x0 x1 x2 x3 x4 x5 x6 x7 i) := by
  refine (ReadP.val_main_call1_v2_apply x0 x1 x2 x3 x4 x5 x6 x7 (ix1 i)).trans ?_
  rw [call1_v1_at, call1_v0_at]
  exact max_eq_right bot_le

theorem call1_v4_at (i : Fin 10000) (c : Fin 40) :
    ReadP.val_main_call1_v4 (F := Ideal) x0 x1 x2 x3 x4 x5 x6 x7 (ix2 i c)
      = Cert.Gcn.rowMax (Z x0 x1 x2 x3 x4 x5 x6 x7 i) := by
  refine (ReadP.val_main_call1_v4_apply x0 x1 x2 x3 x4 x5 x6 x7 (ix2 i c)).trans ?_
  refine (ReadP.val_main_call1_v3_apply x0 x1 x2 x3 x4 x5 x6 x7 _).trans ?_
  refine Eq.trans (congrArg _ (funext fun a => Fin.ext (by match a with | ⟨0, _⟩ => rfl))) (call1_v2_at x0 x1 x2 x3 x4 x5 x6 x7 i)

theorem call1_v5_at (i : Fin 10000) (c : Fin 40) :
    ReadP.val_main_call1_v5 (F := Ideal) x0 x1 x2 x3 x4 x5 x6 x7 (ix2 i c)
      = Z x0 x1 x2 x3 x4 x5 x6 x7 i c - Cert.Gcn.rowMax (Z x0 x1 x2 x3 x4 x5 x6 x7 i) := by
  refine (ReadP.val_main_call1_v5_apply x0 x1 x2 x3 x4 x5 x6 x7 (ix2 i c)).trans ?_
  rw [call1_v4_at, v34_at]
  rfl

theorem call1_v6_at (i : Fin 10000) (c : Fin 40) :
    ReadP.val_main_call1_v6 (F := Ideal) x0 x1 x2 x3 x4 x5 x6 x7 (ix2 i c)
      = Ideal.exp (Z x0 x1 x2 x3 x4 x5 x6 x7 i c - Cert.Gcn.rowMax (Z x0 x1 x2 x3 x4 x5 x6 x7 i)) := by
  refine (ReadP.val_main_call1_v6_apply x0 x1 x2 x3 x4 x5 x6 x7 (ix2 i c)).trans ?_
  rw [call1_v5_at]
  exact Ideal.hostUnary_exp_def _

theorem call1_v7_at (i : Fin 10000) :
    ReadP.val_main_call1_v7 (F := Ideal) x0 x1 x2 x3 x4 x5 x6 x7 (ix1 i)
      = ∑ c' : Fin 40, Ideal.exp (Z x0 x1 x2 x3 x4 x5 x6 x7 i c' - Cert.Gcn.rowMax (Z x0 x1 x2 x3 x4 x5 x6 x7 i)) := by
  refine (ReadP.val_main_call1_v7_apply x0 x1 x2 x3 x4 x5 x6 x7 (ix1 i)).trans ?_
  rw [ReadP.val_main_call1_cst_1_apply]
  refine Eq.trans (congrArg (· + _) Ideal.ofBits_zero_f32) ?_
  rw [zero_add]
  refine Finset.sum_congr rfl fun k _ => ?_
  have hk : ReadP.idx_main_call1_v7 (ix1 i) k = ix2 i k :=
    funext fun a => Fin.ext (by match a with | ⟨0, _⟩ => rfl | ⟨1, _⟩ => rfl)
  rw [hk, call1_v6_at]

theorem call1_v10_at (i : Fin 10000) (c : Fin 40) :
    ReadP.val_main_call1_v10 (F := Ideal) x0 x1 x2 x3 x4 x5 x6 x7 (ix2 i c)
      = Ideal.log (∑ c' : Fin 40, Ideal.exp (Z x0 x1 x2 x3 x4 x5 x6 x7 i c' - Cert.Gcn.rowMax (Z x0 x1 x2 x3 x4 x5 x6 x7 i))) := by
  refine (ReadP.val_main_call1_v10_apply x0 x1 x2 x3 x4 x5 x6 x7 (ix2 i c)).trans ?_
  refine (ReadP.val_main_call1_v9_apply x0 x1 x2 x3 x4 x5 x6 x7 _).trans ?_
  refine Eq.trans (congrArg (FloatOps.hostUnary (F := Ideal) (φ := .f32) .log) (ReadP.val_main_call1_v8_apply x0 x1 x2 x3 x4 x5 x6 x7 _)) ?_
  have hk : ReadP.idx_main_call1_v8 (ReadP.idx_main_call1_v10 (ix2 i c)) = ix1 i :=
    funext fun a => Fin.ext (by match a with | ⟨0, _⟩ => rfl)
  rw [hk, call1_v7_at]
  exact Ideal.hostUnary_log_def _

theorem v35_at (i : Fin 10000) (c : Fin 40) :
    ReadP.val_main_v35 (F := Ideal) x0 x1 x2 x3 x4 x5 x6 x7 (ix2 i c)
      = Cert.Gcn.out (X x0) (Wt x1) (M1 x2) (B1 x3) (M2 x4) (B2 x5) (srcN x6) (Dst x7) i c := by
  refine (ReadP.val_main_v35_apply x0 x1 x2 x3 x4 x5 x6 x7 (ix2 i c)).trans ?_
  rw [call1_v5_at, call1_v10_at]
  rfl

end Stages

-- The reference's result, read stage by stage, is the edge form of the specification.
theorem res_eq (m : (ℓ : Loc nD τ sig) → Buf (Elt Ideal) ℓ) (c : Dev nD) :
    ValueP.res_main_v35 (F := Ideal) m c = fun idx : S10000x40.Idx =>
      Cert.Gcn.out (fun i k => m ((c.tc : Thread nD τ).loc main_arg0) (ix2 i k))
        (fun e => m ((c.tc : Thread nD τ).loc main_arg1) (ix1 e))
        (fun k d => m ((c.tc : Thread nD τ).loc main_arg2) (ix2 k d))
        (fun d => m ((c.tc : Thread nD τ).loc main_arg3) (ix1 d))
        (fun d c' => m ((c.tc : Thread nD τ).loc main_arg4) (ix2 d c'))
        (fun c' => m ((c.tc : Thread nD τ).loc main_arg5) (ix1 c'))
        (srcN (m ((c.tc : Thread nD τ).loc main_arg6)))
        (fun e => (m ((c.tc : Thread nD τ).loc main_arg7) (ix1 e)).toInt)
        ⟨(idx 0).val, (idx 0).isLt⟩ ⟨(idx 1).val, (idx 1).isLt⟩ := by
  rw [ReadP.val_main_v35_eq]
  funext idx
  obtain ⟨p, q, rfl⟩ : ∃ (p : Fin 10000) (q : Fin 40), idx = ix2 p q := ⟨idx 0, idx 1, eq_ix2 idx⟩
  exact v35_at _ _ _ _ _ _ _ _ p q

theorem srcN_of_range (a6 : IVec S640000 32) (e : Fin 640000)
    (h : 0 ≤ (a6 (ix1 e)).toInt ∧ (a6 (ix1 e)).toInt < 10000) :
    ((srcN a6 e).val : ℤ) = (a6 (ix1 e)).toInt := by
  have hsel : ReadP.val_main_v6 (F := Ideal) a6 (ix1 e) = a6 (ix1 e) := by
    refine (ReadP.val_main_v6_apply a6 (ix1 e)).trans ?_
    rw [ReadP.val_main_v3_apply, ReadP.val_main_v2_apply, ReadP.val_main_c_apply]
    exact Cert.PreFacts.select_slt_zero (a6 (ix1 e)) _ h.1
  show ((min (ReadP.val_main_v6 (F := Ideal) a6 (ix1 e)).toInt.toNat 9999 : ℕ) : ℤ) = _
  rw [hsel]
  omega

end Cert.ReferenceIdeal.RefValue

end
-- ==== Proof.RunHost.lean ====
import proofs.«418084_j71923522339154_1_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)

abbrev W2 : Dev nD → Valuation τ sig (Elt F) := fun c => StableHlo.after hostOps0_1 (W1 m c)

abbrev W3 : Dev nD → Valuation τ sig (Elt F) := fun c => StableHlo.after hostOps0_2 (W2 m c)

abbrev V3 : (c : Dev nD) → (b : Ref sig .tc) → Buf (Elt F) ((c : Thread nD τ).loc b) := fun c b => W3 m c b

end Cert.KernelIdeal.Hand

end
-- ==== Proof.FrameR0.lean ====
import proofs.«418084_j71923522339154_1_alg».proof.Proof.Gen.KernelIdeal.Launch
import proofs.«418084_j71923522339154_1_alg».proof.Proof.Gen.KernelIdeal.Skeleton
import proofs.«418084_j71923522339154_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2048x512 := Rect.unit (s := S2048x512) ![0, 0] S2048x512.size inb_S2048x512_S2048x512_0_0
abbrev r0_1 : Rect S512x128 := Rect.unit (s := S512x128) ![0, 0] S512x128.size inb_S512x128_S512x128_0_0
abbrev r0_2 : Rect S2048x128 := Rect.unit (s := S2048x128) ![0, 0] S2048x128.size inb_S2048x128_S2048x128_0_0

def out0_2 (x0 : Vec F S2048x512 .f32) (x1 : Vec F S512x128 .f32) : Vec F S2048x128 .f32 :=
  View.canon [⟨r0_2, k0_pay1 (View.ld x0 r0_0) (View.ld x1 r0_1)⟩]

theorem cover0_2 (p0 : Vec F S2048x128 .f32) (y : S2048x128.Idx) :
    ∃ pc ∈ ([⟨r0_2, p0⟩] : List (View.Piece (Elt F) S2048x128 .f32)), y ∈ pc.1.set :=
  View.cover_of_tiled [⟨r0_2, p0⟩] S2048x128.size (by rfl) y

set_option maxHeartbeats 4000000 in

theorem sound_kernel0 (c : Dev nD) (E : Set ℕ) (i : grid0.Coords)
    (arg0 : Memref sig .tc .vmem S2048x512 .f32) (harg0 : arg0.IsWhole)
    (arg1 : Memref sig .tc .vmem S512x128 .f32) (harg1 : arg1.IsWhole)
    (arg2 : Memref sig .tc .vmem S2048x128 .f32) (harg2 : arg2.IsWhole)
    (x0 : Vec F S2048x512 .f32) (x1 : Vec F S512x128 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__dense_proj_kernel i arg0 harg0 arg1 harg1 arg2 harg2) K := by
  simp only [cc0__dense_proj_kernel_eq_skeleton]; unfold cc0__dense_proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.FrameR1Runs.lean ====
import proofs.«418084_j71923522339154_1_alg».proof.Proof.Gen.KernelIdeal.Launch
import proofs.«418084_j71923522339154_1_alg».proof.Proof.Gen.KernelIdeal.Skeleton
import proofs.«418084_j71923522339154_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel

theorem liveAt1_3_C : ∀ t : Fin cfg1.N, ¬cond1_0 (grid1.coords t) → cond1_1 (grid1.coords t) → cfg1.idle 3 (grid1.coords t) = false := by decide +kernel

abbrev VO1_3 : View sig .tc .vmem S1280x128 .f32 := (Memref.whole cc1_stg3_0 : Memref sig .tc .vmem S1280x128 .f32).view

abbrev ms1_0 (t : Fin cfg1.N) : Memref sig .tc .vmem S1280x1280 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1280x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1280x128 .f32 := win1_3.stage (cfg1.slots t 3)
abbrev hs1_3 (t : Fin cfg1.N) : (ms1_3 t).IsWhole := hstage1_3 ((cfg1.slots t 3).cast nbuf1_3)

abbrev scM1_0 : Memref sig .tc .vmem S1280x128 .f32 := Memref.whole cc1_scratch0

abbrev VS1_0 : View sig .tc .vmem S1280x128 .f32 := scM1_0.view

theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1_0 fullShare d) ∗ rest1 (F := F) c) ∗ (∃ r, prngReg c r)) := by
  unfold Pipeline.ΦA; rw [scopedRest1_split]; simp only [scM1_0, owns_whole]; try rfl

end Cert.KernelIdeal.Hand

end
-- ==== Proof.FrameR1RunA.lean ====
import proofs.«418084_j71923522339154_1_alg».proof.Proof.FrameR1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun1_A (c : Dev nD) (i : grid1.Coords) (arg2 : Memref sig .tc .vmem S1280x1280 .bf16) (harg2 : arg2.IsWhole) (arg3 : Memref sig .tc .vmem S1280x128 .f32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole) (hc0 : cond1_0 i) (hc1 : ¬cond1_1 i)
    (x0 : Vec F S1280x1280 .bf16) (x1 : Vec F S1280x128 .f32) (x2 : Vec F S1x128 .f32) :
    Σ' (L3 : List (View.Piece (Elt F) S1280x128 .f32)), { LS0 : List (View.Piece (Elt F) S1280x128 .f32) //
      ∀ (xi3 : Vec F S1280x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.FrameR1RunB.lean ====
import proofs.«418084_j71923522339154_1_alg».proof.Proof.FrameR1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun1_B (c : Dev nD) (i : grid1.Coords) (arg2 : Memref sig .tc .vmem S1280x1280 .bf16) (harg2 : arg2.IsWhole) (arg3 : Memref sig .tc .vmem S1280x128 .f32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole) (hc0 : ¬cond1_0 i) (hc1 : ¬cond1_1 i)
    (x0 : Vec F S1280x1280 .bf16) (x1 : Vec F S1280x128 .f32) (x2 : Vec F S1x128 .f32) (xs0 : Vec F S1280x128 .f32) :
    Σ' (L3 : List (View.Piece (Elt F) S1280x128 .f32)), { LS0 : List (View.Piece (Elt F) S1280x128 .f32) //
      ∀ (xi3 : Vec F S1280x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.FrameR1RunC.lean ====
import proofs.«418084_j71923522339154_1_alg».proof.Proof.FrameR1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun1_C (c : Dev nD) (i : grid1.Coords) (arg2 : Memref sig .tc .vmem S1280x1280 .bf16) (harg2 : arg2.IsWhole) (arg3 : Memref sig .tc .vmem S1280x128 .f32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole) (hc0 : ¬cond1_0 i) (hc1 : cond1_1 i)
    (x0 : Vec F S1280x1280 .bf16) (x1 : Vec F S1280x128 .f32) (x2 : Vec F S1x128 .f32) (xs0 : Vec F S1280x128 .f32) :
    Σ' (L3 : List (View.Piece (Elt F) S1280x128 .f32)), { LS0 : List (View.Piece (Elt F) S1280x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.FrameR1.lean ====
import proofs.«418084_j71923522339154_1_alg».proof.Proof.FrameR1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section

variable (c : Dev nD) (i : grid1.Coords) (arg2 : Memref sig .tc .vmem S1280x1280 .bf16) (harg2 : arg2.IsWhole) (arg3 : Memref sig .tc .vmem S1280x128 .f32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole)

def out1_A_3 (hc0 : cond1_0 i) (hc1 : ¬cond1_1 i)
    (x0 : Vec F S1280x1280 .bf16) (x1 : Vec F S1280x128 .f32) (x2 : Vec F S1x128 .f32) : Vec F S1280x128 .f32 :=
  VO1_3.read (Elt F) (VO1_3.writes (Elt F) VO1_3.junk (kernelRun1_A c i arg2 harg2 arg3 harg3 arg4 harg4 arg5 harg5 arg6 harg6 hc0 hc1 x0 x1 x2).1)

theorem scover1_A_0 (hc0 : cond1_0 i) (hc1 : ¬cond1_1 i)
    (x0 : Vec F S1280x1280 .bf16) (x1 : Vec F S1280x128 .f32) (x2 : Vec F S1x128 .f32) (y : S1280x128.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1280x128.size (by sl_kernel_rfl) y

def sout1_A_0 (hc0 : cond1_0 i) (hc1 : ¬cond1_1 i)
    (x0 : Vec F S1280x1280 .bf16) (x1 : Vec F S1280x128 .f32) (x2 : Vec F S1x128 .f32) : Vec F S1280x128 .f32 :=
  VS1_0.read (Elt F) (VS1_0.writes (Elt F) VS1_0.junk (kernelRun1_A c i arg2 harg2 arg3 harg3 arg4 harg4 arg5 harg5 arg6 harg6 hc0 hc1 x0 x1 x2).2.1)

def out1_B_3 (hc0 : ¬cond1_0 i) (hc1 : ¬cond1_1 i)
    (x0 : Vec F S1280x1280 .bf16) (x1 : Vec F S1280x128 .f32) (x2 : Vec F S1x128 .f32) (xs0 : Vec F S1280x128 .f32) : Vec F S1280x128 .f32 :=
  VO1_3.read (Elt F) (VO1_3.writes (Elt F) VO1_3.junk (kernelRun1_B c i arg2 harg2 arg3 harg3 arg4 harg4 arg5 harg5 arg6 harg6 hc0 hc1 x0 x1 x2 xs0).1)

theorem scover1_B_0 (hc0 : ¬cond1_0 i) (hc1 : ¬cond1_1 i)
    (x0 : Vec F S1280x1280 .bf16) (x1 : Vec F S1280x128 .f32) (x2 : Vec F S1x128 .f32) (xs0 : Vec F S1280x128 .f32) (y : S1280x128.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1280x128.size (by sl_kernel_rfl) y

def sout1_B_0 (hc0 : ¬cond1_0 i) (hc1 : ¬cond1_1 i)
    (x0 : Vec F S1280x1280 .bf16) (x1 : Vec F S1280x128 .f32) (x2 : Vec F S1x128 .f32) (xs0 : Vec F S1280x128 .f32) : Vec F S1280x128 .f32 :=
  VS1_0.read (Elt F) (VS1_0.writes (Elt F) VS1_0.junk (kernelRun1_B c i arg2 harg2 arg3 harg3 arg4 harg4 arg5 harg5 arg6 harg6 hc0 hc1 x0 x1 x2 xs0).2.1)

theorem cover1_C_3 (hc0 : ¬cond1_0 i) (hc1 : cond1_1 i)
    (x0 : Vec F S1280x1280 .bf16) (x1 : Vec F S1280x128 .f32) (x2 : Vec F S1x128 .f32) (xs0 : Vec F S1280x128 .f32) (y : S1280x128.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1280x128.size (by sl_kernel_rfl) y

def out1_C_3 (hc0 : ¬cond1_0 i) (hc1 : cond1_1 i)
    (x0 : Vec F S1280x1280 .bf16) (x1 : Vec F S1280x128 .f32) (x2 : Vec F S1x128 .f32) (xs0 : Vec F S1280x128 .f32) : Vec F S1280x128 .f32 :=
  VO1_3.read (Elt F) (VO1_3.writes (Elt F) VO1_3.junk (kernelRun1_C c i arg2 harg2 arg3 harg3 arg4 harg4 arg5 harg5 arg6 harg6 hc0 hc1 x0 x1 x2 xs0).1)

theorem scover1_C_0 (hc0 : ¬cond1_0 i) (hc1 : cond1_1 i)
    (x0 : Vec F S1280x1280 .bf16) (x1 : Vec F S1280x128 .f32) (x2 : Vec F S1x128 .f32) (xs0 : Vec F S1280x128 .f32) (y : S1280x128.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1280x128.size (by sl_kernel_rfl) y

def sout1_C_0 (hc0 : ¬cond1_0 i) (hc1 : cond1_1 i)
    (x0 : Vec F S1280x1280 .bf16) (x1 : Vec F S1280x128 .f32) (x2 : Vec F S1x128 .f32) (xs0 : Vec F S1280x128 .f32) : Vec F S1280x128 .f32 :=
  VS1_0.read (Elt F) (VS1_0.writes (Elt F) VS1_0.junk (kernelRun1_C c i arg2 harg2 arg3 harg3 arg4 harg4 arg5 harg5 arg6 harg6 hc0 hc1 x0 x1 x2 xs0).2.1)

end

def outsAt1 (c : Dev nD) : (n : ℕ) → n < cfg1.N → Vec F S1280x128 .f32 × Vec F S1280x128 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h' : (0 : ℕ) % 8 = 7 => absurd h' (by decide)) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h' : (0 : ℕ) % 8 = 7 => absurd h' (by decide)) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 (F := F) c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem Phi_out1 (c : Dev nD) (t : Fin (cfg1.N + 1)) : (dat1 V c).Φ t ⊢ Pipeline.ΦA spec1 c := by
  rw [show (dat1 V c).Φ t = PhiS1 V c t.val (Nat.le_of_lt_succ t.isLt) from rfl]
  by_cases ht : t.val = 0
  · rw [PhiS1_zero V c _ _ ht]
  rw [PhiS1_pos V c _ _ ht, PhiA1_eq]
  iintro ⟨⟨HS0, Hr⟩, Hg⟩
  isplitl [HS0 Hr]
  · isplitl [HS0]
    · iexists _; iexact HS0
    iexact Hr
  iexact Hg

set_option maxHeartbeats 4800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · by_cases h1 : t.val % 8 = 7
    · exfalso; omega
    ·
        rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
        rw [outsAt1_A V c t h0 h1]
        unfold sout1_A_0; (try dsimp only)
        iintro ⟨HΦ, Ho, ⟨%d0, H0⟩, ⟨%d1, H1⟩, ⟨%d2, H2⟩, ⟨%d3, H3⟩⟩
        ihave HP := ((Phi_out1 V c t.castSucc).trans (Entails.of_eq (PhiA1_eq c))) $$ HΦ
        icases HP with ⟨⟨HS0, Hr⟩, Hg⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3

  · by_cases h1 : t.val % 8 = 7
    ·
        rw [show (dat1 V c).leavesExact 3 t = owns (c : Thread nD τ) (ms1_3 t) fullShare ((dat1 V c).after 3 t) from by
          unfold Dat.leavesExact; rw [liveAt1_3_C t (fun h => h0 ((hcond1_0 t).mp h)) ((hcond1_1 t).mpr h1)], after1_3]
        rw [outsAt1_C V c t h0 h1]
        unfold out1_C_3 sout1_C_0; (try dsimp only)
        by_cases hz : t.val = 0
        · exfalso; omega
        · rw [PhiS1_castSucc V c t, PhiS1_pos V c _ _ hz]
          iintro ⟨⟨⟨HS0, Hr⟩, Hg⟩, Ho, ⟨%d0, H0⟩, ⟨%d1, H1⟩, ⟨%d2, H2⟩, ⟨%d3, H3⟩⟩
          iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
          isplitl [H0]; · iexact H0
          isplitl [H1]; · iexact H1
          isplitl [H2]; · iexact H2
          isplitl [H3]; · iexists _; iexact H3
          isplitl [HS0]; · iexact HS0
          iintro ⟨H0, H1, H2, ⟨%e3, H3⟩, ⟨%es0, HS0⟩⟩
          isplitl [HS0 Hr Hg]
          · isplitl [HS0 Hr]
            · isplitl [HS0]
              · unfold owns; iexists _; isplitr
                swap; · iexact HS0
                ipureintro; exact View.read_writes_of_cover _ _ _ _ _ (scover1_C_0 c _ _ _ _ _ _ _ _ _ _ _ _ _ _ _ _ _)
              iexact Hr
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover1_C_3 c _ _ _ _ _ _ _ _ _ _ _ _ _ _ _ _ _)

    ·
        rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
        rw [outsAt1_B V c t h0 h1]
        unfold sout1_B_0; (try dsimp only)
        by_cases hz : t.val = 0
        · exfalso; omega
        · rw [PhiS1_castSucc V c t, PhiS1_pos V c _ _ hz]
          iintro ⟨⟨⟨HS0, Hr⟩, Hg⟩, Ho, ⟨%d0, H0⟩, ⟨%d1, H1⟩, ⟨%d2, H2⟩, ⟨%d3, H3⟩⟩
          iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
          isplitl [H0]; · iexact H0
          isplitl [H1]; · iexact H1
          isplitl [H2]; · iexact H2
          isplitl [H3]; · iexact H3
          isplitl [HS0]; · iexact HS0
          iintro ⟨H0, H1, H2, H3, ⟨%es0, HS0⟩⟩
          isplitl [HS0 Hr Hg]
          · isplitl [HS0 Hr]
            · isplitl [HS0]
              · unfold owns; iexists _; isplitr
                swap; · iexact HS0
                ipureintro; exact View.read_writes_of_cover _ _ _ _ _ (scover1_B_0 c _ _ _ _ _ _ _ _ _ _ _ _ _ _ _ _ _)
              iexact Hr
            iexact Hg
          isplitl [Ho]; · iexact Ho
          isplitl [H0]; · iexact H0
          isplitl [H1]; · iexact H1
          isplitl [H2]; · iexact H2
          iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := Phi_out1 V c _

end Cert.KernelIdeal.Hand

end
-- ==== Proof.FrameR2.lean ====
import proofs.«418084_j71923522339154_1_alg».proof.Proof.Gen.KernelIdeal.Launch
import proofs.«418084_j71923522339154_1_alg».proof.Proof.Gen.KernelIdeal.Skeleton
import proofs.«418084_j71923522339154_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S2048x128 := Rect.unit (s := S2048x128) ![0, 0] S2048x128.size inb_S2048x128_S2048x128_0_0
abbrev r2_1 : Rect S128x40 := Rect.unit (s := S128x40) ![0, 0] S128x40.size inb_S128x40_S128x40_0_0
abbrev r2_2 : Rect S2048x40 := Rect.unit (s := S2048x40) ![0, 0] S2048x40.size inb_S2048x40_S2048x40_0_0

def out2_2 (x0 : Vec F S2048x128 .f32) (x1 : Vec F S128x40 .f32) : Vec F S2048x40 .f32 :=
  View.canon [⟨r2_2, k2_pay1 (View.ld x0 r2_0) (View.ld x1 r2_1)⟩]

theorem cover2_2 (p0 : Vec F S2048x40 .f32) (y : S2048x40.Idx) :
    ∃ pc ∈ ([⟨r2_2, p0⟩] : List (View.Piece (Elt F) S2048x40 .f32)), y ∈ pc.1.set :=
  View.cover_of_tiled [⟨r2_2, p0⟩] S2048x40.size (by rfl) y

set_option maxHeartbeats 4000000 in

theorem sound_kernel2 (c : Dev nD) (E : Set ℕ) (i : grid2.Coords)
    (arg0 : Memref sig .tc .vmem S2048x128 .f32) (harg0 : arg0.IsWhole)
    (arg1 : Memref sig .tc .vmem S128x40 .f32) (harg1 : arg1.IsWhole)
    (arg2 : Memref sig .tc .vmem S2048x40 .f32) (harg2 : arg2.IsWhole)
    (x0 : Vec F S2048x128 .f32) (x1 : Vec F S128x40 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out2_2 x0 x1)) -∗ K ⟨⟩))
      ⊢ wp frame (wpE (defs₀ (F := F)) Variants.none c none) E (cc2__dense_proj_kernel i arg0 harg0 arg1 harg1 arg2 harg2) K := by
  simp only [cc2__dense_proj_kernel_eq_skeleton]; unfold cc2__dense_proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.FrameR3Runs.lean ====
import proofs.«418084_j71923522339154_1_alg».proof.Proof.Gen.KernelIdeal.Launch
import proofs.«418084_j71923522339154_1_alg».proof.Proof.Gen.KernelIdeal.Skeleton
import proofs.«418084_j71923522339154_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)

abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel

theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
theorem idleAt3_3_B : ∀ t : Fin cfg3.N, ¬cond3_0 (grid3.coords t) → ¬cond3_1 (grid3.coords t) → cfg3.idle 3 (grid3.coords t) = true := by decide +kernel
theorem noFlush3_3_B : ∀ t : Fin cfg3.N, ¬cond3_0 (grid3.coords t) → ¬cond3_1 (grid3.coords t) → (cfg3.win 3).flush t = false := by decide +kernel

theorem liveAt3_3_C : ∀ t : Fin cfg3.N, ¬cond3_0 (grid3.coords t) → cond3_1 (grid3.coords t) → cfg3.idle 3 (grid3.coords t) = false := by decide +kernel

abbrev VO3_3 : View sig .tc .vmem S1280x40 .f32 := (Memref.whole cc3_stg3_0 : Memref sig .tc .vmem S1280x40 .f32).view

abbrev ms3_0 (t : Fin cfg3.N) : Memref sig .tc .vmem S1280x1280 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1280x40 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x40 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1280x40 .f32 := win3_3.stage (cfg3.slots t 3)
abbrev hs3_3 (t : Fin cfg3.N) : (ms3_3 t).IsWhole := hstage3_3 ((cfg3.slots t 3).cast nbuf3_3)

abbrev scM3_0 : Memref sig .tc .vmem S1280x40 .f32 := Memref.whole cc3_scratch0

abbrev VS3_0 : View sig .tc .vmem S1280x40 .f32 := scM3_0.view

theorem scopedRest3_split (c : Dev nD) :
    (Pipeline.scopedRest (Ix := Unit) (Name := ℕ) (U := UR sig nD τ) (Lvl := ℕ) (Val := Elt F) spec3 c : sProp 𝕄)
      = iprop((∃ f : Buf (Elt F) ((c : Thread nD τ).loc cc3_scratch0), ((c : Thread nD τ).loc cc3_scratch0) ↦{fullShare} f)
          ∗ Pipeline.scopedRestBut (Ix := Unit) (Name := ℕ) (U := UR sig nD τ) (Lvl := ℕ) (Val := Elt F) spec3 c [cc3_scratch0]) :=
  Pipeline.scopedRest_split_of_list spec3 c [cc3_scratch0] (by decide) (by decide)

abbrev rest3 (c : Dev nD) : sProp 𝕄 :=
  Pipeline.scopedRestBut (Ix := Unit) (Name := ℕ) (U := UR sig nD τ) (Lvl := ℕ) (Val := Elt F) spec3 c [cc3_scratch0]

theorem PhiA3_eq (c : Dev nD) :
    (Pipeline.ΦA spec3 c : sProp 𝕄)
      = iprop(iprop((∃ d, owns (c : Thread nD τ) scM3_0 fullShare d) ∗ rest3 (F := F) c) ∗ (∃ r, prngReg c r)) := by
  unfold Pipeline.ΦA; rw [scopedRest3_split]; simp only [scM3_0, owns_whole]; try rfl

end Cert.KernelIdeal.Hand

end
-- ==== Proof.FrameR3RunA.lean ====
import proofs.«418084_j71923522339154_1_alg».proof.Proof.FrameR3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun3_A (c : Dev nD) (i : grid3.Coords) (arg2 : Memref sig .tc .vmem S1280x1280 .bf16) (harg2 : arg2.IsWhole) (arg3 : Memref sig .tc .vmem S1280x40 .f32) (harg3 : arg3.IsWhole) (arg4 : Memref sig .tc .vmem S1x40 .f32) (harg4 : arg4.IsWhole) (arg5 : Memref sig .tc .vmem S1280x40 .f32) (harg5 : arg5.IsWhole) (arg6 : Memref sig .tc .vmem S1280x40 .f32) (harg6 : arg6.IsWhole) (hc0 : cond3_0 i) (hc1 : ¬cond3_1 i)
    (x0 : Vec F S1280x1280 .bf16) (x1 : Vec F S1280x40 .f32) (x2 : Vec F S1x40 .f32) :
    Σ' (L3 : List (View.Piece (Elt F) S1280x40 .f32)), { LS0 : List (View.Piece (Elt F) S1280x40 .f32) //
      ∀ (xi3 : Vec F S1280x40 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3_kernel i arg2 harg2 arg3 harg3 arg4 harg4 arg5 harg5 arg6 harg6) K } := by
  refine ⟨[], ?_, fun xi3 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.FrameR3RunB.lean ====
import proofs.«418084_j71923522339154_1_alg».proof.Proof.FrameR3RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun3_B (c : Dev nD) (i : grid3.Coords) (arg2 : Memref sig .tc .vmem S1280x1280 .bf16) (harg2 : arg2.IsWhole) (arg3 : Memref sig .tc .vmem S1280x40 .f32) (harg3 : arg3.IsWhole) (arg4 : Memref sig .tc .vmem S1x40 .f32) (harg4 : arg4.IsWhole) (arg5 : Memref sig .tc .vmem S1280x40 .f32) (harg5 : arg5.IsWhole) (arg6 : Memref sig .tc .vmem S1280x40 .f32) (harg6 : arg6.IsWhole) (hc0 : ¬cond3_0 i) (hc1 : ¬cond3_1 i)
    (x0 : Vec F S1280x1280 .bf16) (x1 : Vec F S1280x40 .f32) (x2 : Vec F S1x40 .f32) (xs0 : Vec F S1280x40 .f32) :
    Σ' (L3 : List (View.Piece (Elt F) S1280x40 .f32)), { LS0 : List (View.Piece (Elt F) S1280x40 .f32) //
      ∀ (xi3 : Vec F S1280x40 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3_kernel i arg2 harg2 arg3 harg3 arg4 harg4 arg5 harg5 arg6 harg6) K } := by
  refine ⟨[], ?_, fun xi3 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.FrameR3RunC.lean ====
import proofs.«418084_j71923522339154_1_alg».proof.Proof.FrameR3RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun3_C (c : Dev nD) (i : grid3.Coords) (arg2 : Memref sig .tc .vmem S1280x1280 .bf16) (harg2 : arg2.IsWhole) (arg3 : Memref sig .tc .vmem S1280x40 .f32) (harg3 : arg3.IsWhole) (arg4 : Memref sig .tc .vmem S1x40 .f32) (harg4 : arg4.IsWhole) (arg5 : Memref sig .tc .vmem S1280x40 .f32) (harg5 : arg5.IsWhole) (arg6 : Memref sig .tc .vmem S1280x40 .f32) (harg6 : arg6.IsWhole) (hc0 : ¬cond3_0 i) (hc1 : cond3_1 i)
    (x0 : Vec F S1280x1280 .bf16) (x1 : Vec F S1280x40 .f32) (x2 : Vec F S1x40 .f32) (xs0 : Vec F S1280x40 .f32) :
    Σ' (L3 : List (View.Piece (Elt F) S1280x40 .f32)), { LS0 : List (View.Piece (Elt F) S1280x40 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3_kernel i arg2 harg2 arg3 harg3 arg4 harg4 arg5 harg5 arg6 harg6) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.FrameR3.lean ====
import proofs.«418084_j71923522339154_1_alg».proof.Proof.FrameR3RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section

variable (c : Dev nD) (i : grid3.Coords) (arg2 : Memref sig .tc .vmem S1280x1280 .bf16) (harg2 : arg2.IsWhole) (arg3 : Memref sig .tc .vmem S1280x40 .f32) (harg3 : arg3.IsWhole) (arg4 : Memref sig .tc .vmem S1x40 .f32) (harg4 : arg4.IsWhole) (arg5 : Memref sig .tc .vmem S1280x40 .f32) (harg5 : arg5.IsWhole) (arg6 : Memref sig .tc .vmem S1280x40 .f32) (harg6 : arg6.IsWhole)

def out3_A_3 (hc0 : cond3_0 i) (hc1 : ¬cond3_1 i)
    (x0 : Vec F S1280x1280 .bf16) (x1 : Vec F S1280x40 .f32) (x2 : Vec F S1x40 .f32) : Vec F S1280x40 .f32 :=
  VO3_3.read (Elt F) (VO3_3.writes (Elt F) VO3_3.junk (kernelRun3_A c i arg2 harg2 arg3 harg3 arg4 harg4 arg5 harg5 arg6 harg6 hc0 hc1 x0 x1 x2).1)

theorem scover3_A_0 (hc0 : cond3_0 i) (hc1 : ¬cond3_1 i)
    (x0 : Vec F S1280x1280 .bf16) (x1 : Vec F S1280x40 .f32) (x2 : Vec F S1x40 .f32) (y : S1280x40.Idx) :
    ∃ pc ∈ (kernelRun3_A c i arg2 harg2 arg3 harg3 arg4 harg4 arg5 harg5 arg6 harg6 hc0 hc1 x0 x1 x2).2.1, y ∈ pc.1.set :=
  View.cover_of_tiledL (kernelRun3_A c i arg2 harg2 arg3 harg3 arg4 harg4 arg5 harg5 arg6 harg6 hc0 hc1 x0 x1 x2).2.1 S1280x40.size (by sl_kernel_rfl) y

def sout3_A_0 (hc0 : cond3_0 i) (hc1 : ¬cond3_1 i)
    (x0 : Vec F S1280x1280 .bf16) (x1 : Vec F S1280x40 .f32) (x2 : Vec F S1x40 .f32) : Vec F S1280x40 .f32 :=
  VS3_0.read (Elt F) (VS3_0.writes (Elt F) VS3_0.junk (kernelRun3_A c i arg2 harg2 arg3 harg3 arg4 harg4 arg5 harg5 arg6 harg6 hc0 hc1 x0 x1 x2).2.1)

def out3_B_3 (hc0 : ¬cond3_0 i) (hc1 : ¬cond3_1 i)
    (x0 : Vec F S1280x1280 .bf16) (x1 : Vec F S1280x40 .f32) (x2 : Vec F S1x40 .f32) (xs0 : Vec F S1280x40 .f32) : Vec F S1280x40 .f32 :=
  VO3_3.read (Elt F) (VO3_3.writes (Elt F) VO3_3.junk (kernelRun3_B c i arg2 harg2 arg3 harg3 arg4 harg4 arg5 harg5 arg6 harg6 hc0 hc1 x0 x1 x2 xs0).1)

theorem scover3_B_0 (hc0 : ¬cond3_0 i) (hc1 : ¬cond3_1 i)
    (x0 : Vec F S1280x1280 .bf16) (x1 : Vec F S1280x40 .f32) (x2 : Vec F S1x40 .f32) (xs0 : Vec F S1280x40 .f32) (y : S1280x40.Idx) :
    ∃ pc ∈ (kernelRun3_B c i arg2 harg2 arg3 harg3 arg4 harg4 arg5 harg5 arg6 harg6 hc0 hc1 x0 x1 x2 xs0).2.1, y ∈ pc.1.set :=
  View.cover_of_tiledL (kernelRun3_B c i arg2 harg2 arg3 harg3 arg4 harg4 arg5 harg5 arg6 harg6 hc0 hc1 x0 x1 x2 xs0).2.1 S1280x40.size (by sl_kernel_rfl) y

def sout3_B_0 (hc0 : ¬cond3_0 i) (hc1 : ¬cond3_1 i)
    (x0 : Vec F S1280x1280 .bf16) (x1 : Vec F S1280x40 .f32) (x2 : Vec F S1x40 .f32) (xs0 : Vec F S1280x40 .f32) : Vec F S1280x40 .f32 :=
  VS3_0.read (Elt F) (VS3_0.writes (Elt F) VS3_0.junk (kernelRun3_B c i arg2 harg2 arg3 harg3 arg4 harg4 arg5 harg5 arg6 harg6 hc0 hc1 x0 x1 x2 xs0).2.1)

theorem cover3_C_3 (hc0 : ¬cond3_0 i) (hc1 : cond3_1 i)
    (x0 : Vec F S1280x1280 .bf16) (x1 : Vec F S1280x40 .f32) (x2 : Vec F S1x40 .f32) (xs0 : Vec F S1280x40 .f32) (y : S1280x40.Idx) :
    ∃ pc ∈ (kernelRun3_C c i arg2 harg2 arg3 harg3 arg4 harg4 arg5 harg5 arg6 harg6 hc0 hc1 x0 x1 x2 xs0).1, y ∈ pc.1.set :=
  View.cover_of_tiledL (kernelRun3_C c i arg2 harg2 arg3 harg3 arg4 harg4 arg5 harg5 arg6 harg6 hc0 hc1 x0 x1 x2 xs0).1 S1280x40.size (by sl_kernel_rfl) y

def out3_C_3 (hc0 : ¬cond3_0 i) (hc1 : cond3_1 i)
    (x0 : Vec F S1280x1280 .bf16) (x1 : Vec F S1280x40 .f32) (x2 : Vec F S1x40 .f32) (xs0 : Vec F S1280x40 .f32) : Vec F S1280x40 .f32 :=
  VO3_3.read (Elt F) (VO3_3.writes (Elt F) VO3_3.junk (kernelRun3_C c i arg2 harg2 arg3 harg3 arg4 harg4 arg5 harg5 arg6 harg6 hc0 hc1 x0 x1 x2 xs0).1)

theorem scover3_C_0 (hc0 : ¬cond3_0 i) (hc1 : cond3_1 i)
    (x0 : Vec F S1280x1280 .bf16) (x1 : Vec F S1280x40 .f32) (x2 : Vec F S1x40 .f32) (xs0 : Vec F S1280x40 .f32) (y : S1280x40.Idx) :
    ∃ pc ∈ (kernelRun3_C c i arg2 harg2 arg3 harg3 arg4 harg4 arg5 harg5 arg6 harg6 hc0 hc1 x0 x1 x2 xs0).2.1, y ∈ pc.1.set :=
  View.cover_of_tiledL (kernelRun3_C c i arg2 harg2 arg3 harg3 arg4 harg4 arg5 harg5 arg6 harg6 hc0 hc1 x0 x1 x2 xs0).2.1 S1280x40.size (by sl_kernel_rfl) y

def sout3_C_0 (hc0 : ¬cond3_0 i) (hc1 : cond3_1 i)
    (x0 : Vec F S1280x1280 .bf16) (x1 : Vec F S1280x40 .f32) (x2 : Vec F S1x40 .f32) (xs0 : Vec F S1280x40 .f32) : Vec F S1280x40 .f32 :=
  VS3_0.read (Elt F) (VS3_0.writes (Elt F) VS3_0.junk (kernelRun3_C c i arg2 harg2 arg3 harg3 arg4 harg4 arg5 harg5 arg6 harg6 hc0 hc1 x0 x1 x2 xs0).2.1)

end

def outsAt3 (c : Dev nD) : (n : ℕ) → n < cfg3.N → Vec F S1280x40 .f32 × Vec F S1280x40 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h' : (0 : ℕ) % 8 = 7 => absurd h' (by decide)) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h' : (0 : ℕ) % 8 = 7 => absurd h' (by decide)) ((hcond3_1 ⟨0, hn⟩).mp h)) (iblk3 V c 0 ⟨0, hn⟩) (iblk3 V c 1 ⟨0, hn⟩) (iblk3 V c 2 ⟨0, hn⟩))
  | n + 1, hn =>
    if h0 : (n + 1) % 8 = 0 then
      if h1 : (n + 1) % 8 = 7 then
        False.elim (by omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 8 = 7 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

theorem outsAt3_A (c : Dev nD) (t : Fin cfg3.N) (h0 : t.val % 8 = 0) (h1 : ¬t.val % 8 = 7) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

theorem outsAt3_B (c : Dev nD) (t : Fin cfg3.N) (h0 : ¬t.val % 8 = 0) (h1 : ¬t.val % 8 = 7) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 8 = 0) (h1 : t.val % 8 = 7) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ rest3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2) ∗ rest3 (F := F) c) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ rest3 (F := F) c) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

theorem Phi_out3 (c : Dev nD) (t : Fin (cfg3.N + 1)) : (dat3 V c).Φ t ⊢ Pipeline.ΦA spec3 c := by
  rw [show (dat3 V c).Φ t = PhiS3 V c t.val (Nat.le_of_lt_succ t.isLt) from rfl]
  by_cases ht : t.val = 0
  · rw [PhiS3_zero V c _ _ ht]
  rw [PhiS3_pos V c _ _ ht, PhiA3_eq]
  iintro ⟨⟨HS0, Hr⟩, Hg⟩
  isplitl [HS0 Hr]
  · isplitl [HS0]
    · iexists _; iexact HS0
    iexact Hr
  iexact Hg

set_option maxHeartbeats 4800000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  by_cases h0 : t.val % 8 = 0
  · by_cases h1 : t.val % 8 = 7
    · exfalso; omega
    ·
        rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
        rw [outsAt3_A V c t h0 h1]
        unfold sout3_A_0; (try dsimp only)
        iintro ⟨HΦ, Ho, ⟨%d0, H0⟩, ⟨%d1, H1⟩, ⟨%d2, H2⟩, ⟨%d3, H3⟩⟩
        ihave HP := ((Phi_out3 V c t.castSucc).trans (Entails.of_eq (PhiA3_eq c))) $$ HΦ
        icases HP with ⟨⟨HS0, Hr⟩, Hg⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover3_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3

  · by_cases h1 : t.val % 8 = 7
    ·
        rw [show (dat3 V c).leavesExact 3 t = owns (c : Thread nD τ) (ms3_3 t) fullShare ((dat3 V c).after 3 t) from by
          unfold Dat.leavesExact; rw [liveAt3_3_C t (fun h => h0 ((hcond3_0 t).mp h)) ((hcond3_1 t).mpr h1)], after3_3]
        rw [outsAt3_C V c t h0 h1]
        unfold out3_C_3 sout3_C_0; (try dsimp only)
        by_cases hz : t.val = 0
        · exfalso; omega
        · rw [PhiS3_castSucc V c t, PhiS3_pos V c _ _ hz]
          iintro ⟨⟨⟨HS0, Hr⟩, Hg⟩, Ho, ⟨%d0, H0⟩, ⟨%d1, H1⟩, ⟨%d2, H2⟩, ⟨%d3, H3⟩⟩
          iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
          isplitl [H0]; · iexact H0
          isplitl [H1]; · iexact H1
          isplitl [H2]; · iexact H2
          isplitl [H3]; · iexists _; iexact H3
          isplitl [HS0]; · iexact HS0
          iintro ⟨H0, H1, H2, ⟨%e3, H3⟩, ⟨%es0, HS0⟩⟩
          isplitl [HS0 Hr Hg]
          · isplitl [HS0 Hr]
            · isplitl [HS0]
              · unfold owns; iexists _; isplitr
                swap; · iexact HS0
                ipureintro; exact View.read_writes_of_cover _ _ _ _ _ (scover3_C_0 c _ _ _ _ _ _ _ _ _ _ _ _ _ _ _ _ _)
              iexact Hr
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover3_C_3 c _ _ _ _ _ _ _ _ _ _ _ _ _ _ _ _ _)

    ·
        rw [Dat.leavesExact_idle (dat3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
        rw [outsAt3_B V c t h0 h1]
        unfold sout3_B_0; (try dsimp only)
        by_cases hz : t.val = 0
        · exfalso; omega
        · rw [PhiS3_castSucc V c t, PhiS3_pos V c _ _ hz]
          iintro ⟨⟨⟨HS0, Hr⟩, Hg⟩, Ho, ⟨%d0, H0⟩, ⟨%d1, H1⟩, ⟨%d2, H2⟩, ⟨%d3, H3⟩⟩
          iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
          isplitl [H0]; · iexact H0
          isplitl [H1]; · iexact H1
          isplitl [H2]; · iexact H2
          isplitl [H3]; · iexact H3
          isplitl [HS0]; · iexact HS0
          iintro ⟨H0, H1, H2, H3, ⟨%es0, HS0⟩⟩
          isplitl [HS0 Hr Hg]
          · isplitl [HS0 Hr]
            · isplitl [HS0]
              · unfold owns; iexists _; isplitr
                swap; · iexact HS0
                ipureintro; exact View.read_writes_of_cover _ _ _ _ _ (scover3_B_0 c _ _ _ _ _ _ _ _ _ _ _ _ _ _ _ _ _)
              iexact Hr
            iexact Hg
          isplitl [Ho]; · iexact Ho
          isplitl [H0]; · iexact H0
          isplitl [H1]; · iexact H1
          isplitl [H2]; · iexact H2
          iexists _; iexact H3

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem hout3 (c : Dev nD) : (dat3 V c).Φ (Fin.last cfg3.N) ⊢ Pipeline.ΦA spec3 c := Phi_out3 V c _

end Cert.KernelIdeal.Hand

end
-- ==== Proof.Run.lean ====
import proofs.«418084_j71923522339154_1_alg».proof.Proof.Gen.KernelIdeal.Regions
import proofs.«418084_j71923522339154_1_alg».proof.Proof.RunHost
import proofs.«418084_j71923522339154_1_alg».proof.Proof.FrameR0
import proofs.«418084_j71923522339154_1_alg».proof.Proof.FrameR1
import proofs.«418084_j71923522339154_1_alg».proof.Proof.FrameR2
import proofs.«418084_j71923522339154_1_alg».proof.Proof.FrameR3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb

abbrev V4 : (c : Dev nD) → (b : Ref sig .tc) → Buf (Elt F) ((c : Thread nD τ).loc b) := fun c b => W4 m c b

def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb

abbrev V5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

abbrev V6 : (c : Dev nD) → (b : Ref sig .tc) → Buf (Elt F) ((c : Thread nD τ).loc b) := fun c b => W6 m c b

def W7 (c : Dev nD) : Valuation τ sig (Elt F) :=
  Pipeline.withArrays spec3 c (W6 m c) fun w => (dat3 (V6 m) c).arrAt w cfg3.N
theorem W7_arr (c : Dev nD) (w : Fin cfg3.W) :
    W7 m c (Proc.devRef .tc (Pipeline.arrRef spec3 w)) = (dat3 (V6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb

abbrev V7 : (c : Dev nD) → (b : Ref sig .tc) → Buf (Elt F) ((c : Thread nD τ).loc b) := fun c b => W7 m c b

abbrev W8 : Dev nD → Valuation τ sig (Elt F) := fun c => StableHlo.after hostOps4 (W7 m c)

def pdats : (p : Fin 4) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V4 m) c
  | ⟨2, _⟩ => fun c => dat2 (V5 m) c
  | ⟨3, _⟩ => fun c => dat3 (V6 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
-- A kernel region as a segment of @main, once for the four: entered with every unscoped buffer at Wi, left with the
-- windows' arrays at what the write-backs leave and every other buffer as entered; nothing is owed.
def reg (p : Fin 4) (hl : Pipeline.LaunchFacts (nD := nD) (τ := τ) cfgs p) (Wi Wo : Dev nD → Valuation τ sig (Elt F))
    (hb : ∀ c, BodyObligation (pdats m p c) (defs₀ (F := F)) 𝒱₀ () Set.univ)
    (hq : ∀ c w, (pdats m p c).q w = fullShare) (ho : ∀ c t, (pdats m p c).owed t = 0) (hrec : ∀ c t, (pdats m p c).recorded t = Set.univ)
    (hA : ∀ c w, (pdats m p c).A w = Wi c (Proc.devRef .tc (Pipeline.arrRef (cfgs p).spec w)))
    (harr : ∀ c w, Wo c (Proc.devRef .tc (Pipeline.arrRef (cfgs p).spec w)) = (pdats m p c).arrAt w (cfgs p).N)
    (hne : ∀ c (b : Ref sig .tc), (∀ w, Pipeline.arrRef (cfgs p).spec w ≠ b) → Wo c (Proc.devRef .tc b) = Wi c (Proc.devRef .tc b))
    (hin : ∀ c, (Pipeline.ΦA (cfgs p).spec c : sProp 𝕄) ⊢ (pdats m p c).Φ 0)
    (hout : ∀ c, (pdats m p c).Φ (Fin.last _) ⊢ (Pipeline.ΦA (cfgs p).spec c : sProp 𝕄)) :
    Pipeline.RegionSeg (pcfgs (F := F)) adm (pdats m) () defs₀ 𝒱₀ L lv p where
  win := hl.win.to₀
  block_pos := hl.block_pos
  stage_whole := hl.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    rw [Pipeline.ownSems0_none]
    have hsplit := Pipeline.arrays_of_unscopedBufs (p := p) (pcfgs (F := F)) adm (pdats m) hl.win hl.arr_whole c
      ((pdats m p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho c]
      icases HO with ⟨%W, HO⟩; iexists W; isplitr; · ipureintro; exact fun _ _ => Or.inl ((Set.ext_iff.mp (hrec c 0) _).mpr trivial)
      iexact HO
    isplitl [Hp]; · iexact Hp
    iexact Hrest
  hin c := by
    refine (show _ ⊢ (Pipeline.ΦA (cfgs p).spec c : sProp 𝕄) from ?_).trans (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c (pdats m) ((pdats m p c).share_full (hq c))
      (fun b => Wi c b) (fun b => Wo c b) ((pdats m p c).arrAt · (cfgs p).N) (fun w => (harr c w).symm)
      fun b hb => hne c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho c]
    icases HO with ⟨%W, -, HO⟩; iexists W; iexact HO

abbrev segs (c : Dev nD) : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg m 0 launch0 (W3 m) (W4 m) (body_obligation0 (V3 m)) (fun _ _ => rfl) (fun _ _ => rfl) (fun _ _ => rfl) (fun _ _ => rfl) (W4_arr m) (W4_of_ne m)
      (fun _ => .rfl) (fun _ => .rfl)),
    .region (reg m 1 launch1 (W4 m) (W5 m) (body_obligation1 (V4 m)) (fun _ _ => rfl) (fun _ _ => rfl) (fun _ _ => rfl) (fun _ _ => rfl) (W5_arr m) (W5_of_ne m)
      (hin1 (V4 m)) (hout1 (V4 m))),
    .region (reg m 2 launch2 (W5 m) (W6 m) (body_obligation2 (V5 m)) (fun _ _ => rfl) (fun _ _ => rfl) (fun _ _ => rfl) (fun _ _ => rfl) (W6_arr m) (W6_of_ne m)
      (fun _ => .rfl) (fun _ => .rfl)),
    .region (reg m 3 launch3 (W6 m) (W7 m) (body_obligation3 (V6 m)) (fun _ _ => rfl) (fun _ _ => rfl) (fun _ _ => rfl) (fun _ _ => rfl) (W7_arr m) (W7_of_ne m)
      (hin3 (V6 m)) (hout3 (V6 m))),
    .host (hseg hostOps4 hostOps4_sub hostOps4_fresh (W7 m)) ]

set_option backward.isDefEq.respectTransparency.types false in

theorem run_all : θ_run defs (onTc (τ := τ) (main (F := F))) ⟨m, fun _ => 0, ρ⟩
    (fun r => ∀ c : Dev nD, ∀ b ∈ Pipeline.ucRefs τ sig, r.2.mem (((c : Thread nD τ)).1, b) = W8 m c b) := by
  refine Pipeline.θ_run_regions_kit_dev (pcfgs (F := F)) adm (pdats m) () cellOf_inj emb₁ defs₀ 𝒱₀ L lv m ρ main
    (segs m)
    (fun c Q => by
      rewrite [main_chain c, Pipeline.Seg.run_eq_chain,
        show (segs m c).map Pipeline.Seg.prog = [
          StableHlo.seq hostOps0,
          StableHlo.seq hostOps0_1,
          StableHlo.seq hostOps0_2,
          Prog.lift (.customCall (Pipeline.entry 0) ()),
          Prog.lift (.customCall (Pipeline.entry 1) ()),
          Prog.lift (.customCall (Pipeline.entry 2) ()),
          Prog.lift (.customCall (Pipeline.entry 3) ()),
          StableHlo.seq hostOps4 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W8 m c))
    (hch := fun c => ⟨.rfl, .rfl, .rfl, .rfl, .rfl, .rfl, .rfl, .rfl, sep_mono .rfl (by iintro ⟨-, HO⟩; iexact HO)⟩)
    (hinit := ?_)
    (QY := fun c s => ∀ b ∈ Pipeline.ucRefs τ sig, s.mem (((c : Thread nD τ)).1, b) = W8 m c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (W0 m c)
      from Pipeline.unscopedBufs_held c (W0 m c)]
    iintro ⟨⟨Hh, -, HO, -, Hp, -⟩, -⟩
    imodintro
    isplitl [Hh]; · iexact Hh
    isplitl [Hp]; · iexists _; iexact Hp
    iexists ∅; iexact HO
  · iintro ⟨Hh, HSI⟩
    unfold StableHlo.held
    imodintro
    iapply (pointsTo_read_all (Pipeline.ucRefs τ sig) (fun b => (((c : Thread nD τ)).1, b)) (W8 m c) s')
    isplitl [Hh] <;> iassumption

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- A buffer that is no window's array passes the four regions unchanged.
theorem regs_ne (c : Dev nD) (r : Ref sig .tc)
    (h : (∀ w, Pipeline.arrRef spec3 w ≠ r) ∧ (∀ w, Pipeline.arrRef spec2 w ≠ r) ∧ (∀ w, Pipeline.arrRef spec1 w ≠ r) ∧
      (∀ w, Pipeline.arrRef spec0 w ≠ r)) :
    W7 m c (Proc.devRef .tc r) = W3 m c (Proc.devRef .tc r) :=
  (W7_of_ne m c r h.1).trans <| (W6_of_ne m c r h.2.1).trans <| (W5_of_ne m c r h.2.2.1).trans (W4_of_ne m c r h.2.2.2)

-- A buffer that no host stretch writes and no region changes holds its launch contents at the end.
theorem kept {mem : (ℓ : Loc nD τ sig) → Buf (Elt F) ℓ} (c : Dev nD)
    (hm : ∀ b ∈ Pipeline.ucRefs τ sig, mem (((c : Thread nD τ)).1, b) = W8 m c b) (r : Ref sig .tc)
    (h : ¬ (Proc.devRef .tc r : DevRef τ sig).isScoped ∧ r ∉ hostOps4_W ∧ r ∉ hostOps0_2_W ∧ r ∉ hostOps0_1_W ∧ r ∉ hostOps0_W)
    (e : W7 m c (Proc.devRef .tc r) = W3 m c (Proc.devRef .tc r)) :
    mem ((c.tc : Thread nD τ).loc r) = m ((c.tc : Thread nD τ).loc r) :=
  (hm _ (mem_uc r h.1)).trans <|
  (StableHlo.after_of_writes_sub hostOps4 _ hostOps4_writes h.2.1).trans <| e.trans <|
  (StableHlo.after_of_writes_sub hostOps0_2 _ hostOps0_2_writes h.2.2.1).trans <|
  (StableHlo.after_of_writes_sub hostOps0_1 _ hostOps0_1_writes h.2.2.2.1).trans <|
  (StableHlo.after_of_writes_sub hostOps0 _ hostOps0_writes h.2.2.2.2).trans rfl

-- The run read at the result and at the arguments (the two weight matrices are input windows of a projection, left as entered).
theorem run_value : θ_run defs (onTc (τ := τ) (main (F := F))) ⟨m, fun _ => 0, ρ⟩ (fun r => ∀ c : Dev nD,
      r.2.mem ((c.tc : Thread nD τ).loc main_v15) = W8 m c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v15 (by decide)),
     kept m c (h c) main_arg0 (by decide) (regs_ne m c _ (by decide)),
     kept m c (h c) main_arg1 (by decide) (regs_ne m c _ (by decide)),
     kept m c (h c) main_arg2 (by decide) ((W7_of_ne m c main_arg2 (by decide)).trans <| (W6_of_ne m c main_arg2 (by decide)).trans <| (W5_of_ne m c main_arg2 (by decide)).trans <|
       (W4_arr m c 1).trans (((dat0 (V3 m) c).arrAt_in 1 rfl _).trans (A_eq0 (V3 m) c 1))),
     kept m c (h c) main_arg3 (by decide) (regs_ne m c _ (by decide)),
     kept m c (h c) main_arg4 (by decide) ((W7_of_ne m c main_arg4 (by decide)).trans <| ((W6_arr m c 1).trans (((dat2 (V5 m) c).arrAt_in 1 rfl _).trans (A_eq2 (V5 m) c 1))).trans <|
       (W5_of_ne m c main_arg4 (by decide)).trans (W4_of_ne m c main_arg4 (by decide))),
     kept m c (h c) main_arg5 (by decide) (regs_ne m c _ (by decide)),
     kept m c (h c) main_arg6 (by decide) (regs_ne m c _ (by decide)),
     kept m c (h c) main_arg7 (by decide) (regs_ne m c _ (by decide))⟩) (run_all m ρ)

end Cert.KernelIdeal.Hand

end
-- ==== Proof.PayIdxA.lean ====
import proofs.«418084_j71923522339154_1_alg».proof.Proof.Gen.KernelIdeal.Skeleton
import proofs.«418084_j71923522339154_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayIdx

open Cert.KernelIdeal Cert.KernelIdeal.Gen Idealize.ShloMosaic Idealize.ShloMosaic.ValueIdx
open scoped BigOperators

-- A product of an M × K by a K × N block into a zero accumulator, contracting the one shared axis: entry (r, d) is Σ_k x (r, k) · y (k, d).
theorem matmul2_apply {M K N : Nat} {φ₁ φ₂ : FTy} (d : DotDims ⟨2, ![M, K]⟩ ⟨2, ![K, N]⟩ ⟨2, ![M, N]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![M, K]⟩ φ₁) (y : FVec Ideal ⟨2, ![K, N]⟩ φ₂) (i : (⟨2, ![M, N]⟩ : Shape).Idx) :
    FloatOps.matmul d none x y (constant (F := Ideal) ⟨2, ![M, N]⟩ .f32 0x00000000#32) i
      = ∑ k : Fin K, x (ix2 (i 0) k) * y (ix2 k (i 1)) := by
  have key : ∀ (p q : Nat) (hp : p < 2) (hq : q < 2), p = q → (i ⟨p, hp⟩).val = (i ⟨q, hq⟩).val :=
    fun p q hp hq h => by subst h; rfl
  rw [Ideal.matmul_constant_zero_apply, ← Equiv.sum_comp (contrEquiv1 d K hr hs).symm]
  refine Finset.sum_congr rfl fun k _ => ?_
  have hk := contrEquiv1_symm_val d K hr hs k
  have el : d.lhsIdx i ((contrEquiv1 d K hr hs).symm k) = ix2 (i 0) k := funext fun a => Fin.ext (by
    match a with
    | ⟨0, _⟩ =>
      unfold DotDims.lhsIdx
      rw [dif_neg (by rw [hlb]; exact List.not_mem_nil), dif_pos (by rw [hln]; exact List.mem_singleton.mpr rfl)]
      simp only [Fin.val_cast]
      exact key _ _ _ _ (by simp [hlb, hln])
    | ⟨1, _⟩ => exact (d.lhsIdx_val_of_single hlc _ _).trans hk)
  have er : d.rhsIdx i ((contrEquiv1 d K hr hs).symm k) = ix2 k (i 1) := funext fun a => Fin.ext (by
    match a with
    | ⟨0, _⟩ => exact (d.rhsIdx_val_of_single hrc _ _).trans hk
    | ⟨1, _⟩ =>
      unfold DotDims.rhsIdx
      rw [dif_neg (by rw [hrb]; exact List.not_mem_nil), dif_pos (by rw [hrn]; exact List.mem_singleton.mpr rfl)]
      simp only [Fin.val_cast]
      exact key _ _ _ _ (by simp [hlb, hln, hrn]))
  rw [el, er]
  rfl

theorem k0_pay1_apply (x0 : Vec Ideal S2048x512 .f32) (x1 : Vec Ideal S512x128 .f32) (r : Fin 2048) (d : Fin 128) :
    k0_pay1 (F := Ideal) x0 x1 (ix2 r d) = ∑ k : Fin 512, x0 (ix2 r k) * x1 (ix2 k d) := by
  unfold Gen.k0_pay1
  rw [shapeCast_self]
  exact matmul2_apply dot_S2048x512_S512x128_S2048x128_1_0_0_1_n_n rfl rfl rfl rfl rfl rfl rfl rfl (φ₁ := .bf16) (φ₂ := .bf16) _ _ (ix2 r d)

theorem k2_pay1_apply (x0 : Vec Ideal S2048x128 .f32) (x1 : Vec Ideal S128x40 .f32) (r : Fin 2048) (c : Fin 40) :
    k2_pay1 (F := Ideal) x0 x1 (ix2 r c) = ∑ k : Fin 128, x0 (ix2 r k) * x1 (ix2 k c) := by
  unfold Gen.k2_pay1
  rw [shapeCast_self]
  exact matmul2_apply dot_S2048x128_S128x40_S2048x40_1_0_0_1_n_n rfl rfl rfl rfl rfl rfl rfl rfl (φ₁ := .bf16) (φ₂ := .bf16) _ _ (ix2 r c)

theorem k1_pay1_apply (r : Fin 1280) (d : Fin 128) : k1_pay1 (F := Ideal) (ix2 r d) = 0 := by
  unfold Gen.k1_pay1
  rw [shapeCast_self]
  exact Ideal.ofBits_zero_f32

theorem k3_pay1_apply (r : Fin 1280) (c : Fin 40) : k3_pay1 (F := Ideal) (ix2 r c) = 0 := by
  unfold Gen.k3_pay1
  rw [shapeCast_self]
  exact Ideal.ofBits_zero_f32

end Cert.KernelIdeal.PayIdx

end
-- ==== Proof.ArrNames.lean ====
import proofs.«418084_j71923522339154_1_alg».proof.KernelIdeal
import Idealize.ShloMosaic.PureOps.Ideal

noncomputable section

namespace Cert.KernelIdeal.Hand

open Cert.KernelIdeal
open Idealize.ShloMosaic Idealize.ShloMosaic.TcCoe Idealize.SL.Sem

section
variable (V : (c : Dev nD) → (b : Ref sig .tc) → Buf (Elt Ideal) ((c : Thread nD τ).loc b)) (c : Dev nD)

abbrev aAdj : Vec Ideal S10240x10240 .bf16 := V c main_v7

abbrev aXp : Vec Ideal S10240x512 .f32 := V c main_v8

abbrev aB1 : Vec Ideal S1x128 .f32 := V c main_v9
abbrev aB2 : Vec Ideal S1x40 .f32 := V c main_v10

abbrev aW1 : Vec Ideal S512x128 .f32 := V c main_arg2
abbrev aW2 : Vec Ideal S128x40 .f32 := V c main_arg4

abbrev aXw1 : Vec Ideal S10240x128 .f32 := V c main_v11
abbrev aHid : Vec Ideal S10240x128 .f32 := V c main_v12
abbrev aHw2 : Vec Ideal S10240x40 .f32 := V c main_v13
abbrev aOut : Vec Ideal S10240x40 .f32 := V c main_v14
end

section
variable (m : (ℓ : Loc nD τ sig) → Buf (Elt Ideal) ℓ) (c : Dev nD)

abbrev mX : Vec Ideal S10000x512 .f32 := m ((c.tc : Thread nD τ).loc main_arg0)
abbrev mW : Vec Ideal S640000 .f32 := m ((c.tc : Thread nD τ).loc main_arg1)
abbrev mW1 : Vec Ideal S512x128 .f32 := m ((c.tc : Thread nD τ).loc main_arg2)
abbrev mB1 : Vec Ideal S128 .f32 := m ((c.tc : Thread nD τ).loc main_arg3)
abbrev mW2 : Vec Ideal S128x40 .f32 := m ((c.tc : Thread nD τ).loc main_arg4)
abbrev mB2 : Vec Ideal S40 .f32 := m ((c.tc : Thread nD τ).loc main_arg5)
abbrev mSrc : IVec S640000 32 := m ((c.tc : Thread nD τ).loc main_arg6)
abbrev mDst : IVec S640000 32 := m ((c.tc : Thread nD τ).loc main_arg7)
end

end Cert.KernelIdeal.Hand

end
-- ==== Proof.ValueR0.lean ====
import proofs.«418084_j71923522339154_1_alg».proof.Proof.FrameR0
import proofs.«418084_j71923522339154_1_alg».proof.Proof.PayIdxA
import proofs.«418084_j71923522339154_1_alg».proof.Proof.ArrNames
import Idealize.ShloMosaic.Lib.ValueIdx
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem hz0 : (![0, 0] : Fin 2 → Nat) = fun _ => 0 := funext fun a => by fin_cases a <;> rfl

abbrev xblk0 (c : Dev nD) (t : Fin cfg0.N) : Vec Ideal S2048x512 .f32 := iblk0 V c 0 t
abbrev wblk0 (c : Dev nD) (t : Fin cfg0.N) : Vec Ideal S512x128 .f32 := iblk0 V c 1 t

def G0 (xp : Vec Ideal S10240x512 .f32) (W : Vec Ideal S512x128 .f32) : Vec Ideal S10240x128 .f32 :=
  fun j => ∑ k : Fin 512, xp (ix2 (j 0) k) * W (ix2 k (j 1))

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem flushed0_eq (c : Dev nD) (t : Fin cfg0.N) :
    (dat0 (F := Ideal) V c).flushed 2 t = ((cfg0.win 2).blk t).view.read (Elt Ideal) (G0 (aXp V c) (aW1 V c)) := by
  show (cfg0.win 2).cut (grid0.coords t) ((dat0 V c).after 2 t) = _
  rw [after0_2]
  unfold out0_2
  rw [View.canon_unit_zero hz0]
  simp only [View.ld_unit_zero (S := S2048x512) hz0, View.ld_unit_zero (S := S512x128) hz0]
  funext y
  obtain ⟨r, d, rfl⟩ : ∃ (r : Fin 2048) (d : Fin 128), y = ix2 r d := ⟨y 0, y 1, eq_ix2 y⟩
  show k0_pay1 (F := Ideal) (xblk0 V c t) (wblk0 V c t) (ix2 r d)
    = G0 (aXp V c) (aW1 V c) (((cfg0.win 2).blk t).view.emb (ix2 r d))
  refine (PayIdx.k0_pay1_apply _ _ r d).trans ?_
  obtain ⟨e0, e1, e2, e3, e4, e5⟩ := idx_facts0 t
  refine Finset.sum_congr rfl fun k _ => ?_
  have hx : ((cfg0.win 0).blk t).view.emb (ix2 r k) = ix2 ((((cfg0.win 2).blk t).view.emb (ix2 r d)) 0) k := by
    funext a; apply Fin.ext
    match a with
    | ⟨0, _⟩ => show win0_0.index t (0 : Fin 2) * 2048 + 1 * r.val = win0_2.index t (0 : Fin 2) * 2048 + 1 * r.val; omega
    | ⟨1, _⟩ => show win0_0.index t (1 : Fin 2) * 512 + 1 * k.val = k.val; omega
  have hw : ((cfg0.win 1).blk t).view.emb (ix2 k d) = ix2 k ((((cfg0.win 2).blk t).view.emb (ix2 r d)) 1) := by
    funext a; apply Fin.ext
    match a with
    | ⟨0, _⟩ => show win0_1.index t (0 : Fin 2) * 512 + 1 * k.val = k.val; omega
    | ⟨1, _⟩ => show win0_1.index t (1 : Fin 2) * 128 + 1 * d.val = win0_2.index t (1 : Fin 2) * 128 + 1 * d.val; omega
  show aXp V c (((cfg0.win 0).blk t).view.emb (ix2 r k)) * aW1 V c (((cfg0.win 1).blk t).view.emb (ix2 k d)) = _
  rw [hx, hw]
  rfl

theorem mem_blk0 (t : Fin cfg0.N) (i : S10240x128.Idx) :
    i ∈ ((cfg0.win 2).blk t).view.set ↔ ∀ a : Fin 2, win0_2.index t a * S2048x128.size a ≤ (i a).val ∧ (i a).val < win0_2.index t a * S2048x128.size a + S2048x128.size a := by
  show i ∈ ((View.whole main_v11).slice (win0_2.rect t)).set ↔ _
  rw [View.set_slice_whole, Rect.mem_set_unit]
  exact Iff.rfl

theorem cover0 (i : S10240x128.Idx) : ∃ t : Fin cfg0.N, (cfg0.win 2).flush t = true ∧ i ∈ ((cfg0.win 2).blk t).view.set := by
  have hi0 : (i 0).val < 10240 := (i 0).isLt
  have hi1 : (i 1).val < 128 := (i 1).isLt
  have hN : cfg0.N = 5 := N_0
  have ht : (i 0).val / 2048 < cfg0.N := by rw [hN]; omega
  obtain ⟨e0, e1, e2, e3, e4, e5⟩ := idx_facts0 ⟨(i 0).val / 2048, ht⟩
  refine ⟨⟨(i 0).val / 2048, ht⟩, flush0_2 _, ?_⟩
  rw [mem_blk0]
  intro a
  match a with
  | ⟨0, _⟩ =>
    show win0_2.index ⟨(i 0).val / 2048, ht⟩ (0 : Fin 2) * 2048 ≤ (i 0).val ∧ (i 0).val < win0_2.index ⟨(i 0).val / 2048, ht⟩ (0 : Fin 2) * 2048 + 2048
    rw [e4]; show (i 0).val / 2048 * 2048 ≤ (i 0).val ∧ (i 0).val < (i 0).val / 2048 * 2048 + 2048; omega
  | ⟨1, _⟩ =>
    show win0_2.index ⟨(i 0).val / 2048, ht⟩ (1 : Fin 2) * 128 ≤ (i 1).val ∧ (i 1).val < win0_2.index ⟨(i 0).val / 2048, ht⟩ (1 : Fin 2) * 128 + 128
    rw [e5]; omega

theorem final0_fun (c : Dev nD) : (dat0 (F := Ideal) V c).arrAt 2 cfg0.N = G0 (aXp V c) (aW1 V c) :=
  (dat0 V c).arrAt_eq_of_cover 2 (G0 (aXp V c) (aW1 V c)) (fun t _ => flushed0_eq V c t) cover0

theorem final0 (c : Dev nD) (p : Fin 10240) (q : Fin 128) :
    (dat0 (F := Ideal) V c).arrAt 2 cfg0.N (ix2 p q) = ∑ k : Fin 512, aXp V c (ix2 p k) * aW1 V c (ix2 k q) :=
  congrFun (final0_fun V c) (ix2 p q)

end Cert.KernelIdeal.Hand

end
-- ==== Proof.FrameR1Pieces.lean ====
import proofs.«418084_j71923522339154_1_alg».proof.Proof.FrameR1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hzR1 : (![0, 0] : Fin 2 → Nat) = fun _ => 0 := funext fun a => by fin_cases a <;> rfl

section

variable (c : Dev nD) (i : grid1.Coords) (arg2 : Memref sig .tc .vmem S1280x1280 .bf16) (harg2 : arg2.IsWhole) (arg3 : Memref sig .tc .vmem S1280x128 .f32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole)

theorem sout1_A_0_eq (hc0 : cond1_0 i) (hc1 : ¬cond1_1 i)
    (x0 : Vec F S1280x1280 .bf16) (x1 : Vec F S1280x128 .f32) (x2 : Vec F S1x128 .f32) :
    sout1_A_0 c i arg2 harg2 arg3 harg3 arg4 harg4 arg5 harg5 arg6 harg6 hc0 hc1 x0 x1 x2 = k1_pay2 x0 x1 (k1_pay1 (F := F)) := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  sl_unfold_words
  rw [View.canon_cons_unit_zero (S := S1280x128) hzR1, View.readCov_unit_zero (S := S1280x128) _ hzR1]
  simp only [View.readAt_eq_ld, harg2.read_unread, harg3.read_unread, harg4.read_unread, View.ld_unit_zero (S := S1280x1280) hzR1, View.ld_unit_zero (S := S1280x128) hzR1, View.ld_unit_zero (S := S1x128) hzR1]

theorem sout1_B_0_eq (hc0 : ¬cond1_0 i) (hc1 : ¬cond1_1 i)
    (x0 : Vec F S1280x1280 .bf16) (x1 : Vec F S1280x128 .f32) (x2 : Vec F S1x128 .f32) (xs0 : Vec F S1280x128 .f32) :
    sout1_B_0 c i arg2 harg2 arg3 harg3 arg4 harg4 arg5 harg5 arg6 harg6 hc0 hc1 x0 x1 x2 xs0 = k1_pay2 x0 x1 xs0 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  sl_unfold_words
  rw [View.canon_unit_zero hzR1]
  simp only [View.readAt_eq_ld, harg2.read_unread, harg3.read_unread, harg4.read_unread, harg6.read_unread, View.ld_unit_zero (S := S1280x1280) hzR1, View.ld_unit_zero (S := S1280x128) hzR1, View.ld_unit_zero (S := S1x128) hzR1, View.readCov_unit_zero (S := S1280x128) _ hzR1]

theorem sout1_C_0_eq (hc0 : ¬cond1_0 i) (hc1 : cond1_1 i)
    (x0 : Vec F S1280x1280 .bf16) (x1 : Vec F S1280x128 .f32) (x2 : Vec F S1x128 .f32) (xs0 : Vec F S1280x128 .f32) :
    sout1_C_0 c i arg2 harg2 arg3 harg3 arg4 harg4 arg5 harg5 arg6 harg6 hc0 hc1 x0 x1 x2 xs0 = k1_pay2 x0 x1 xs0 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  sl_unfold_words
  rw [View.canon_unit_zero hzR1]
  simp only [View.readAt_eq_ld, harg2.read_unread, harg3.read_unread, harg4.read_unread, harg6.read_unread, View.ld_unit_zero (S := S1280x1280) hzR1, View.ld_unit_zero (S := S1280x128) hzR1, View.ld_unit_zero (S := S1x128) hzR1, View.readCov_unit_zero (S := S1280x128) _ hzR1]

theorem out1_C_3_eq (hc0 : ¬cond1_0 i) (hc1 : cond1_1 i)
    (x0 : Vec F S1280x1280 .bf16) (x1 : Vec F S1280x128 .f32) (x2 : Vec F S1x128 .f32) (xs0 : Vec F S1280x128 .f32) :
    out1_C_3 c i arg2 harg2 arg3 harg3 arg4 harg4 arg5 harg5 arg6 harg6 hc0 hc1 x0 x1 x2 xs0 = k1_pay3 (k1_pay2 x0 x1 xs0) x2 := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero hzR1]
  simp only [View.readAt_eq_ld, harg2.read_unread, harg3.read_unread, harg4.read_unread, harg6.read_unread, View.ld_unit_zero (S := S1280x1280) hzR1, View.ld_unit_zero (S := S1280x128) hzR1, View.ld_unit_zero (S := S1x128) hzR1, View.readCov_unit_zero (S := S1280x128) _ hzR1]

end

end Cert.KernelIdeal.Hand

end
-- ==== Proof.PayIdxB.lean ====
import proofs.«418084_j71923522339154_1_alg».proof.Proof.Gen.KernelIdeal.Skeleton
import proofs.«418084_j71923522339154_1_alg».proof.Proof.Spec
import proofs.«418084_j71923522339154_1_alg».proof.Proof.PayIdxA
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayIdx

open Cert.KernelIdeal Cert.KernelIdeal.Gen Idealize.ShloMosaic Idealize.ShloMosaic.ValueIdx
open scoped BigOperators

theorem k1_pay2_apply (a : Vec Ideal S1280x1280 .bf16) (h : Vec Ideal S1280x128 .f32) (s : Vec Ideal S1280x128 .f32)
    (r : Fin 1280) (d : Fin 128) :
    k1_pay2 (F := Ideal) a h s (ix2 r d) = s (ix2 r d) + ∑ j : Fin 1280, a (ix2 r j) * h (ix2 j d) := by
  unfold Gen.k1_pay2
  rw [shapeCast_self, shapeCast_self, shapeCast_self]
  exact congrArg (fun t => s (ix2 r d) + t) (matmul2_apply dot_S1280x1280_S1280x128_S1280x128_1_0_0_1_n_n rfl rfl rfl rfl rfl rfl rfl rfl (φ₁ := .bf16) (φ₂ := .bf16) _ _ (ix2 r d))

theorem k3_pay2_apply (a : Vec Ideal S1280x1280 .bf16) (h : Vec Ideal S1280x40 .f32) (s : Vec Ideal S1280x40 .f32)
    (r : Fin 1280) (c : Fin 40) :
    k3_pay2 (F := Ideal) a h s (ix2 r c) = s (ix2 r c) + ∑ j : Fin 1280, a (ix2 r j) * h (ix2 j c) := by
  unfold Gen.k3_pay2
  rw [shapeCast_self, shapeCast_self, shapeCast_self]
  exact congrArg (fun t => s (ix2 r c) + t) (matmul2_apply dot_S1280x1280_S1280x40_S1280x40_1_0_0_1_n_n rfl rfl rfl rfl rfl rfl rfl rfl (φ₁ := .bf16) (φ₂ := .bf16) _ _ (ix2 r c))

end Cert.KernelIdeal.PayIdx

end
-- ==== Proof.PayIdxC.lean ====
import proofs.«418084_j71923522339154_1_alg».proof.Proof.Gen.KernelIdeal.Skeleton
import proofs.«418084_j71923522339154_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayIdx

open Cert.KernelIdeal Cert.KernelIdeal.Gen Idealize.ShloMosaic Idealize.ShloMosaic.ValueIdx
open scoped BigOperators

theorem k1_pay3_apply (s : Vec Ideal S1280x128 .f32) (b : Vec Ideal S1x128 .f32) (r : Fin 1280) (d : Fin 128) :
    k1_pay3 (F := Ideal) s b (ix2 r d) = max (s (ix2 r d) + b (ix2 (0 : Fin 1) d)) 0 := by
  unfold Gen.k1_pay3
  rw [shapeCast_self]
  show max (s (ix2 r d) + broadcastTo S1280x128 b broadcasts_S1x128_S1280x128 (ix2 r d)) (Ideal.ofBits .f32 0x00000000#32) = _
  rw [broadcastTo_1b_ab_apply, Ideal.ofBits_zero_f32]

section Column
variable {α : Type}

theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

theorem lift_row (r : Fin 1280) (k : Fin 40) : reduces_S1280x40_S1280.lift (ix1 r) k = ix2 r k :=
  funext fun a => Fin.ext (match a with | ⟨0, _⟩ => rfl | ⟨1, _⟩ => rfl)

theorem ofBits_neg_inf : Ideal.ofBits .f32 0xFF800000#32 = ⊥ := by simp [Ideal.ofBits, Ideal.ieee]

theorem rowMax_apply (z : FVec Ideal S1280x40 .f32) (hφ : FKind.Formats .f32)
    (hm : (0xFF800000#32 : BitVec 32) = FKind.maximumf.neutral .f32 hφ) (r : Fin 1280) :
    (multiReduction (F := Ideal) .maximumf [1] S1280 z 0xFF800000#32 reduces_S1280x40_S1280 hφ hm) (ix1 r) = Cert.Gcn.rowMax (fun c' => z (ix2 r c')) := by
  refine (Ideal.multiReduction_maximumf_single z _ reduces_S1280x40_S1280 hφ hm (ix1 r)).trans ?_
  have hf : (z ∘ reduces_S1280x40_S1280.lift (ix1 r)) = fun c' : Fin 40 => z (ix2 r c') :=
    funext fun k => congrArg z (lift_row r k)
  unfold Cert.Gcn.rowMax
  rw [hf]
  exact congrArg (fun t => (Finset.univ : Finset (Fin 40)).fold max t (fun c' : Fin 40 => z (ix2 r c'))) ofBits_neg_inf

theorem rowSum_apply (e : FVec Ideal S1280x40 .f32) (hφ : FKind.Formats .f32)
    (ha : (0x00000000#32 : BitVec 32) = FKind.add.neutral .f32 hφ) (r : Fin 1280) :
    (multiReduction (F := Ideal) .add [1] S1280 e 0x00000000#32 reduces_S1280x40_S1280 hφ ha) (ix1 r) = ∑ c' : Fin 40, e (ix2 r c') := by
  refine (Ideal.multiReduction_add_single e _ reduces_S1280x40_S1280 hφ ha (ix1 r)).trans ?_
  exact Finset.sum_congr rfl fun k _ => congrArg e (lift_row r k)

theorem rowMaxCol_apply (z : FVec Ideal S1280x40 .f32) (hφ : FKind.Formats .f32)
    (hm : (0xFF800000#32 : BitVec 32) = FKind.maximumf.neutral .f32 hφ) (r : Fin 1280) (c : Fin 40) :
    (broadcastTo S1280x40 (shapeCast S1280x1 (multiReduction (F := Ideal) .maximumf [1] S1280 z 0xFF800000#32 reduces_S1280x40_S1280 hφ hm) shapeCasts_S1280_S1280x1) broadcasts_S1280x1_S1280x40) (ix2 r c) = Cert.Gcn.rowMax (fun c' => z (ix2 r c')) :=
  (broadcastTo_a1_ab_apply _ broadcasts_S1280x1_S1280x40 r c).trans
    ((shapeCast_a_a1_apply _ shapeCasts_S1280_S1280x1 r 0).trans (rowMax_apply z hφ hm r))

theorem logSumCol_apply (e : FVec Ideal S1280x40 .f32) (hφ : FKind.Formats .f32)
    (ha : (0x00000000#32 : BitVec 32) = FKind.add.neutral .f32 hφ) (r : Fin 1280) (c : Fin 40) :
    (broadcastTo S1280x40 (log (shapeCast S1280x1 (multiReduction (F := Ideal) .add [1] S1280 e 0x00000000#32 reduces_S1280x40_S1280 hφ ha) shapeCasts_S1280_S1280x1)) broadcasts_S1280x1_S1280x40) (ix2 r c) = Ideal.log (∑ c' : Fin 40, e (ix2 r c')) :=
  (broadcastTo_a1_ab_apply _ broadcasts_S1280x1_S1280x40 r c).trans
    (congrArg Ideal.log ((shapeCast_a_a1_apply _ shapeCasts_S1280_S1280x1 r 0).trans (rowSum_apply e hφ ha r)))

theorem logSoftmax_read (z : FVec Ideal S1280x40 .f32) (hφ : FKind.Formats .f32)
    (hm : (0xFF800000#32 : BitVec 32) = FKind.maximumf.neutral .f32 hφ)
    (ha : (0x00000000#32 : BitVec 32) = FKind.add.neutral .f32 hφ) (r : Fin 1280) (c : Fin 40) :
    subf (subf z (broadcastTo S1280x40 (shapeCast S1280x1 (multiReduction (F := Ideal) .maximumf [1] S1280 z 0xFF800000#32 reduces_S1280x40_S1280 hφ hm) shapeCasts_S1280_S1280x1) broadcasts_S1280x1_S1280x40)) (broadcastTo S1280x40 (log (shapeCast S1280x1 (multiReduction (F := Ideal) .add [1] S1280 (exp (subf z (broadcastTo S1280x40 (shapeCast S1280x1 (multiReduction (F := Ideal) .maximumf [1] S1280 z 0xFF800000#32 reduces_S1280x40_S1280 hφ hm) shapeCasts_S1280_S1280x1) broadcasts_S1280x1_S1280x40))) 0x00000000#32 reduces_S1280x40_S1280 hφ ha) shapeCasts_S1280_S1280x1)) broadcasts_S1280x1_S1280x40) (ix2 r c)
      = Cert.Gcn.logSoftmax (fun c' => z (ix2 r c')) c := by
  have hs : ∀ c' : Fin 40, (subf z (broadcastTo S1280x40 (shapeCast S1280x1 (multiReduction (F := Ideal) .maximumf [1] S1280 z 0xFF800000#32 reduces_S1280x40_S1280 hφ hm) shapeCasts_S1280_S1280x1) broadcasts_S1280x1_S1280x40)) (ix2 r c') = z (ix2 r c') - Cert.Gcn.rowMax (fun c'' => z (ix2 r c'')) :=
    fun c' => congrArg (fun t => z (ix2 r c') - t) (rowMaxCol_apply z hφ hm r c')
  refine (congrArg₂ (fun u v : EReal => u - v) (hs c) (logSumCol_apply _ hφ ha r c)).trans ?_
  unfold Cert.Gcn.logSoftmax
  exact congrArg (fun t => (z (ix2 r c) - Cert.Gcn.rowMax (fun c'' => z (ix2 r c''))) - Ideal.log t)
    (Finset.sum_congr rfl fun c' _ => congrArg Ideal.exp (hs c'))

theorem k3_pay3_apply (s : Vec Ideal S1280x40 .f32) (b : Vec Ideal S1x40 .f32) (r : Fin 1280) (c : Fin 40) :
    k3_pay3 (F := Ideal) s b (ix2 r c) = Cert.Gcn.logSoftmax (fun c' => s (ix2 r c') + b (ix2 (0 : Fin 1) c')) c := by
  unfold Gen.k3_pay3
  rw [shapeCast_self]
  have hfun : (fun c' : Fin 40 => (addf s (broadcastTo S1280x40 b broadcasts_S1x40_S1280x40) : FVec Ideal S1280x40 .f32) (ix2 r c'))
      = fun c' => s (ix2 r c') + b (ix2 (0 : Fin 1) c') :=
    funext fun c' => congrArg (fun t => s (ix2 r c') + t) (broadcastTo_1b_ab_apply b broadcasts_S1x40_S1280x40 r c')
  rw [← hfun]
  exact logSoftmax_read _ _ _ _ r c

end Cert.KernelIdeal.PayIdx

end
-- ==== Proof.ValueDefs.lean ====
import proofs.«418084_j71923522339154_1_alg».proof.Proof.Spec

noncomputable section

open scoped BigOperators

namespace Cert.Gcn

def partBlk {D : ℕ} (A : Fin 10240 → Fin 10240 → EReal) (H : Fin 10240 → Fin D → EReal) (p : Fin 10240) (q : Fin D)
    (kb : Fin 8) : EReal :=
  ∑ j : Fin 1280, A p (blkRow kb j) * H (blkRow kb j) q

-- A product's entry accumulated from 0 over the first n blocks of 1280 source rows.
def accBlk {D : ℕ} (A : Fin 10240 → Fin 10240 → EReal) (H : Fin 10240 → Fin D → EReal) (p : Fin 10240) (q : Fin D) :
    ℕ → EReal
  | 0 => 0
  | n + 1 => accBlk A H p q n + (if h : n < 8 then partBlk A H p q ⟨n, h⟩ else 0)

theorem accBlk_zero {D : ℕ} (A : Fin 10240 → Fin 10240 → EReal) (H : Fin 10240 → Fin D → EReal) (p : Fin 10240) (q : Fin D) :
    accBlk A H p q 0 = 0 := rfl

theorem accBlk_succ {D : ℕ} (A : Fin 10240 → Fin 10240 → EReal) (H : Fin 10240 → Fin D → EReal) (p : Fin 10240) (q : Fin D)
    (n : ℕ) (h : n < 8) : accBlk A H p q (n + 1) = accBlk A H p q n + partBlk A H p q ⟨n, h⟩ := by
  show accBlk A H p q n + (if h : n < 8 then partBlk A H p q ⟨n, h⟩ else 0) = _
  rw [dif_pos h]

theorem acc1_eq_accBlk (x : Fin 10000 → Fin 512 → EReal) (w : Fin 640000 → EReal) (W1 : Fin 512 → Fin 128 → EReal)
    (flat : Fin 640000 → ℤ) (i : Fin 10240) (d : Fin 128) (n : ℕ) :
    acc1 x w W1 flat i d n = accBlk (adj w flat) (xw1K x W1) i d n := by
  induction n with
  | zero => rfl
  | succ n ih =>
    show acc1 x w W1 flat i d n + _ = accBlk (adj w flat) (xw1K x W1) i d n + _
    rw [ih]; rfl

theorem acc2_eq_accBlk (x : Fin 10000 → Fin 512 → EReal) (w : Fin 640000 → EReal) (W1 : Fin 512 → Fin 128 → EReal)
    (b1 : Fin 128 → EReal) (W2 : Fin 128 → Fin 40 → EReal) (flat : Fin 640000 → ℤ) (i : Fin 10240) (c : Fin 40) (n : ℕ) :
    acc2 x w W1 b1 W2 flat i c n = accBlk (adj w flat) (hw2K x w W1 b1 W2 flat) i c n := by
  induction n with
  | zero => rfl
  | succ n ih =>
    show acc2 x w W1 b1 W2 flat i c n + _ = accBlk (adj w flat) (hw2K x w W1 b1 W2 flat) i c n + _
    rw [ih]; rfl

end Cert.Gcn

end
-- ==== Proof.ValueR1Arith.lean ====
import proofs.«418084_j71923522339154_1_alg».proof.Proof.PayIdxA
import proofs.«418084_j71923522339154_1_alg».proof.Proof.PayIdxB
import proofs.«418084_j71923522339154_1_alg».proof.Proof.PayIdxC
import proofs.«418084_j71923522339154_1_alg».proof.Proof.ValueDefs

noncomputable section

namespace Cert.KernelIdeal.Hand

open Cert.KernelIdeal Cert.KernelIdeal.Gen Cert.KernelIdeal.PayIdx Idealize.ShloMosaic Idealize.ShloMosaic.ValueIdx
open Cert.Gcn (accBlk partBlk blkRow accBlk_zero accBlk_succ)
open scoped BigOperators

theorem pay2_next1 (A : Fin 10240 → Fin 10240 → EReal) (H : Fin 10240 → Fin 128 → EReal)
    (a : Vec Ideal S1280x1280 .bf16) (h : Vec Ideal S1280x128 .f32) (s : Vec Ideal S1280x128 .f32) (R k : Fin 8)
    (ha : ∀ (r j : Fin 1280), a (ix2 r j) = A (blkRow R r) (blkRow k j))
    (hh : ∀ (j : Fin 1280) (d : Fin 128), h (ix2 j d) = H (blkRow k j) d)
    (hs : ∀ (r : Fin 1280) (d : Fin 128), s (ix2 r d) = accBlk A H (blkRow R r) d k.val)
    (r : Fin 1280) (d : Fin 128) :
    k1_pay2 (F := Ideal) a h s (ix2 r d) = accBlk A H (blkRow R r) d (k.val + 1) := by
  rw [k1_pay2_apply, accBlk_succ A H (blkRow R r) d k.val k.isLt, hs r d]
  refine congrArg (fun t => accBlk A H (blkRow R r) d k.val + t) ?_
  unfold Cert.Gcn.partBlk
  exact Finset.sum_congr rfl fun j _ => by rw [ha r j, hh j d]

theorem pay2_first1 (A : Fin 10240 → Fin 10240 → EReal) (H : Fin 10240 → Fin 128 → EReal)
    (a : Vec Ideal S1280x1280 .bf16) (h : Vec Ideal S1280x128 .f32) (R k : Fin 8) (hk : k.val = 0)
    (ha : ∀ (r j : Fin 1280), a (ix2 r j) = A (blkRow R r) (blkRow k j))
    (hh : ∀ (j : Fin 1280) (d : Fin 128), h (ix2 j d) = H (blkRow k j) d)
    (r : Fin 1280) (d : Fin 128) :
    k1_pay2 (F := Ideal) a h (k1_pay1 (F := Ideal)) (ix2 r d) = accBlk A H (blkRow R r) d (k.val + 1) :=
  pay2_next1 A H a h (k1_pay1 (F := Ideal)) R k ha hh
    (fun r d => by rw [k1_pay1_apply, hk]; exact (accBlk_zero A H (blkRow R r) d).symm) r d

theorem pay3_out1 (A : Fin 10240 → Fin 10240 → EReal) (H : Fin 10240 → Fin 128 → EReal)
    (s : Vec Ideal S1280x128 .f32) (b : Vec Ideal S1x128 .f32) (R : Fin 8)
    (hs : ∀ (r : Fin 1280) (d : Fin 128), s (ix2 r d) = accBlk A H (blkRow R r) d 8)
    (r : Fin 1280) (d : Fin 128) :
    k1_pay3 (F := Ideal) s b (ix2 r d) = max (accBlk A H (blkRow R r) d 8 + b (ix2 (0 : Fin 1) d)) 0 := by
  rw [k1_pay3_apply, hs r d]

theorem pay2_next3 (A : Fin 10240 → Fin 10240 → EReal) (H : Fin 10240 → Fin 40 → EReal)
    (a : Vec Ideal S1280x1280 .bf16) (h : Vec Ideal S1280x40 .f32) (s : Vec Ideal S1280x40 .f32) (R k : Fin 8)
    (ha : ∀ (r j : Fin 1280), a (ix2 r j) = A (blkRow R r) (blkRow k j))
    (hh : ∀ (j : Fin 1280) (d : Fin 40), h (ix2 j d) = H (blkRow k j) d)
    (hs : ∀ (r : Fin 1280) (d : Fin 40), s (ix2 r d) = accBlk A H (blkRow R r) d k.val)
    (r : Fin 1280) (d : Fin 40) :
    k3_pay2 (F := Ideal) a h s (ix2 r d) = accBlk A H (blkRow R r) d (k.val + 1) := by
  rw [k3_pay2_apply, accBlk_succ A H (blkRow R r) d k.val k.isLt, hs r d]
  refine congrArg (fun t => accBlk A H (blkRow R r) d k.val + t) ?_
  unfold Cert.Gcn.partBlk
  exact Finset.sum_congr rfl fun j _ => by rw [ha r j, hh j d]

theorem pay2_first3 (A : Fin 10240 → Fin 10240 → EReal) (H : Fin 10240 → Fin 40 → EReal)
    (a : Vec Ideal S1280x1280 .bf16) (h : Vec Ideal S1280x40 .f32) (R k : Fin 8) (hk : k.val = 0)
    (ha : ∀ (r j : Fin 1280), a (ix2 r j) = A (blkRow R r) (blkRow k j))
    (hh : ∀ (j : Fin 1280) (d : Fin 40), h (ix2 j d) = H (blkRow k j) d)
    (r : Fin 1280) (d : Fin 40) :
    k3_pay2 (F := Ideal) a h (k3_pay1 (F := Ideal)) (ix2 r d) = accBlk A H (blkRow R r) d (k.val + 1) :=
  pay2_next3 A H a h (k3_pay1 (F := Ideal)) R k ha hh
    (fun r d => by rw [k3_pay1_apply, hk]; exact (accBlk_zero A H (blkRow R r) d).symm) r d

theorem pay3_out3 (A : Fin 10240 → Fin 10240 → EReal) (H : Fin 10240 → Fin 40 → EReal)
    (s : Vec Ideal S1280x40 .f32) (b : Vec Ideal S1x40 .f32) (R : Fin 8)
    (hs : ∀ (r : Fin 1280) (d : Fin 40), s (ix2 r d) = accBlk A H (blkRow R r) d 8)
    (r : Fin 1280) (c : Fin 40) :
    k3_pay3 (F := Ideal) s b (ix2 r c)
      = Cert.Gcn.logSoftmax (fun c' => accBlk A H (blkRow R r) c' 8 + b (ix2 (0 : Fin 1) c')) c := by
  rw [k3_pay3_apply]
  exact congrArg (fun z : Fin 40 → EReal => Cert.Gcn.logSoftmax z c) (funext fun c' => by rw [hs r c'])

end Cert.KernelIdeal.Hand

end
-- ==== Proof.ValueR1Blocks.lean ====
import proofs.«418084_j71923522339154_1_alg».proof.Proof.FrameR1Runs
import proofs.«418084_j71923522339154_1_alg».proof.Proof.ArrNames
import proofs.«418084_j71923522339154_1_alg».proof.Proof.ValueDefs
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.Gcn (blkRow)

variable (V : (c : Dev nD) → (b : Ref sig .tc) → Buf (Elt Ideal) ((c : Thread nD τ).loc b))

abbrev adjBlk1 (c : Dev nD) (t : Fin cfg1.N) : Vec Ideal S1280x1280 .bf16 := iblk1 V c 0 t
abbrev featBlk1 (c : Dev nD) (t : Fin cfg1.N) : Vec Ideal S1280x128 .f32 := iblk1 V c 1 t
abbrev biasBlk1 (c : Dev nD) (t : Fin cfg1.N) : Vec Ideal S1x128 .f32 := iblk1 V c 2 t

theorem idx1 : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0 :=
  (by decide +kernel : ∀ t : Fin grid1.N, _)

theorem adjBlk1_apply (c : Dev nD) (t : Fin cfg1.N) (R k : Fin 8) (ht : t.val = 8 * R.val + k.val) (r j : Fin 1280) :
    adjBlk1 V c t (ix2 r j) = aAdj V c (ix2 (blkRow R r) (blkRow k j)) := by
  obtain ⟨e0, e1, -⟩ := idx1 t
  show iblk1 V c 0 t (ix2 r j) = _
  unfold iblk1
  rw [View.read_apply]
  show V c main_v7 _ = V c main_v7 _
  refine congrArg (V c main_v7) (funext fun a => Fin.ext ?_)
  match a with
  | ⟨0, _⟩ => show win1_0.index t (0 : Fin 2) * 1280 + 1 * r.val = 1280 * R.val + r.val; omega
  | ⟨1, _⟩ => show win1_0.index t (1 : Fin 2) * 1280 + 1 * j.val = 1280 * k.val + j.val; omega

theorem featBlk1_apply (c : Dev nD) (t : Fin cfg1.N) (R k : Fin 8) (ht : t.val = 8 * R.val + k.val) (j : Fin 1280) (d : Fin 128) :
    featBlk1 V c t (ix2 j d) = aXw1 V c (ix2 (blkRow k j) d) := by
  obtain ⟨-, -, e0, e1, -⟩ := idx1 t
  show iblk1 V c 1 t (ix2 j d) = _
  unfold iblk1
  rw [View.read_apply]
  show V c main_v11 _ = V c main_v11 _
  refine congrArg (V c main_v11) (funext fun a => Fin.ext ?_)
  match a with
  | ⟨0, _⟩ => show win1_1.index t (0 : Fin 2) * 1280 + 1 * j.val = 1280 * k.val + j.val; omega
  | ⟨1, _⟩ => show win1_1.index t (1 : Fin 2) * 128 + 1 * d.val = d.val; omega

theorem biasBlk1_apply (c : Dev nD) (t : Fin cfg1.N) (d : Fin 128) :
    biasBlk1 V c t (ix2 (0 : Fin 1) d) = aB1 V c (ix2 (0 : Fin 1) d) := by
  obtain ⟨-, -, -, -, e0, e1, -⟩ := idx1 t
  show iblk1 V c 2 t (ix2 (0 : Fin 1) d) = _
  unfold iblk1
  rw [View.read_apply]
  show V c main_v9 _ = V c main_v9 _
  refine congrArg (V c main_v9) (funext fun a => Fin.ext ?_)
  match a with
  | ⟨0, _⟩ => show win1_2.index t (0 : Fin 2) * 1 + 1 * 0 = 0; omega
  | ⟨1, _⟩ => show win1_2.index t (1 : Fin 2) * 128 + 1 * d.val = d.val; omega

theorem mem_blk1 (t : Fin cfg1.N) (i : S10240x128.Idx) :
    i ∈ ((cfg1.win 3).blk t).view.set ↔ ∀ a : Fin 2, win1_3.index t a * S1280x128.size a ≤ (i a).val ∧ (i a).val < win1_3.index t a * S1280x128.size a + S1280x128.size a := by
  show i ∈ ((View.whole main_v12).slice (win1_3.rect t)).set ↔ _
  rw [View.set_slice_whole, Rect.mem_set_unit]
  exact Iff.rfl

def lastPt1 (R : Fin 8) : Fin cfg1.N := ⟨8 * R.val + 7, by rw [show cfg1.N = 64 from N_1]; omega⟩

theorem lastPt1_val (R : Fin 8) : (lastPt1 R).val = 8 * R.val + 7 := rfl

theorem cover1 (i : S10240x128.Idx) :
    ∃ t : Fin cfg1.N, (cfg1.win 3).flush t = true ∧ i ∈ ((cfg1.win 3).blk t).view.set := by
  have hi0 : (i 0).val < 10240 := (i 0).isLt
  have hi1 : (i 1).val < 128 := (i 1).isLt
  refine ⟨lastPt1 ⟨(i 0).val / 1280, by omega⟩, (flush1_3 _).mpr (by rw [lastPt1_val]; omega), ?_⟩
  obtain ⟨-, -, -, -, -, -, e0, e1⟩ := idx1 (lastPt1 ⟨(i 0).val / 1280, by omega⟩)
  rw [lastPt1_val] at e0
  rw [mem_blk1]
  intro a
  match a with
  | ⟨0, _⟩ =>
    show win1_3.index (lastPt1 ⟨(i 0).val / 1280, by omega⟩) (0 : Fin 2) * 1280 ≤ (i 0).val ∧ (i 0).val < win1_3.index (lastPt1 ⟨(i 0).val / 1280, by omega⟩) (0 : Fin 2) * 1280 + 1280
    dsimp only at e0
    omega
  | ⟨1, _⟩ =>
    show win1_3.index (lastPt1 ⟨(i 0).val / 1280, by omega⟩) (1 : Fin 2) * 128 ≤ (i 1).val ∧ (i 1).val < win1_3.index (lastPt1 ⟨(i 0).val / 1280, by omega⟩) (1 : Fin 2) * 128 + 128
    omega

end Cert.KernelIdeal.Hand

end
-- ==== Proof.ValueR1.lean ====
import proofs.«418084_j71923522339154_1_alg».proof.Proof.FrameR1Pieces
import proofs.«418084_j71923522339154_1_alg».proof.Proof.ValueR1Arith
import proofs.«418084_j71923522339154_1_alg».proof.Proof.ValueR1Blocks
import Idealize.ShloMosaic.Lib.ValueIdx
import Idealize.ShloMosaic.Lib.Pipeline.Value

noncomputable section

namespace Cert.KernelIdeal.Hand

open Cert.KernelIdeal Cert.KernelIdeal.Gen Cert.KernelIdeal.PayIdx
open Idealize.ShloMosaic Idealize.ShloMosaic.TcCoe Idealize.SL.Sem Idealize.ShloMosaic.ValueIdx
open Idealize.ShloMosaic.Pipeline (Dat)
open Cert.Gcn (accBlk partBlk blkRow accBlk_zero accBlk_succ)
open scoped BigOperators

variable (V : (c : Dev nD) → (b : Ref sig .tc) → Buf (Elt Ideal) ((c : Thread nD τ).loc b))

theorem scr1_A (c : Dev nD) (t : Fin cfg1.N) (h0 : t.val % 8 = 0) :
    (outsAt1 V c t.val t.isLt).2 = k1_pay2 (F := Ideal) (adjBlk1 V c t) (featBlk1 V c t) (k1_pay1 (F := Ideal)) := by
  have h1 : ¬t.val % 8 = 7 := by omega
  rw [outsAt1_A V c t h0 h1]
  dsimp only
  exact sout1_A_0_eq (F := Ideal) c (grid1.coords t) (ms1_0 t) (hs1_0 t) (ms1_1 t) (hs1_1 t) (ms1_2 t) (hs1_2 t) (ms1_3 t) (hs1_3 t) scM1_0 (Memref.isWhole_whole cc1_scratch0) ((hcond1_0 t).mpr h0) (fun h => h1 ((hcond1_1 t).mp h)) (iblk1 V c 0 t) (iblk1 V c 1 t) (iblk1 V c 2 t)

theorem scr1_BC (c : Dev nD) (t : Fin cfg1.N) (h0 : ¬t.val % 8 = 0) :
    (outsAt1 V c t.val t.isLt).2 = k1_pay2 (F := Ideal) (adjBlk1 V c t) (featBlk1 V c t)
      (outsAt1 V c (t.val - 1) (Nat.lt_of_le_of_lt (Nat.sub_le _ _) t.isLt)).2 := by
  by_cases h1 : t.val % 8 = 7
  · rw [outsAt1_C V c t h0 h1]
    dsimp only
    exact sout1_C_0_eq (F := Ideal) c (grid1.coords t) (ms1_0 t) (hs1_0 t) (ms1_1 t) (hs1_1 t) (ms1_2 t) (hs1_2 t) (ms1_3 t) (hs1_3 t) scM1_0 (Memref.isWhole_whole cc1_scratch0) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2
  · rw [outsAt1_B V c t h0 h1]
    dsimp only
    exact sout1_B_0_eq (F := Ideal) c (grid1.coords t) (ms1_0 t) (hs1_0 t) (ms1_1 t) (hs1_1 t) (ms1_2 t) (hs1_2 t) (ms1_3 t) (hs1_3 t) scM1_0 (Memref.isWhole_whole cc1_scratch0) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2

theorem out1_C (c : Dev nD) (t : Fin cfg1.N) (h1 : t.val % 8 = 7) :
    (outsAt1 V c t.val t.isLt).1 = k1_pay3 (F := Ideal) (outsAt1 V c t.val t.isLt).2 (biasBlk1 V c t) := by
  have h0 : ¬t.val % 8 = 0 := by omega
  rw [outsAt1_C V c t h0 h1]
  dsimp only
  rw [sout1_C_0_eq (F := Ideal) c (grid1.coords t) (ms1_0 t) (hs1_0 t) (ms1_1 t) (hs1_1 t) (ms1_2 t) (hs1_2 t) (ms1_3 t) (hs1_3 t) scM1_0 (Memref.isWhole_whole cc1_scratch0) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2]
  exact out1_C_3_eq (F := Ideal) c (grid1.coords t) (ms1_0 t) (hs1_0 t) (ms1_1 t) (hs1_1 t) (ms1_2 t) (hs1_2 t) (ms1_3 t) (hs1_3 t) scM1_0 (Memref.isWhole_whole cc1_scratch0) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2

theorem scratch1_eq (c : Dev nD) : ∀ (n : ℕ) (hn : n < cfg1.N) (R : Fin 8) (k : ℕ) (hk : k < 8), n = 8 * R.val + k →
    ∀ (r : Fin 1280) (d : Fin 128), (outsAt1 V c n hn).2 (ix2 r d)
      = accBlk (fun i j => aAdj V c (ix2 i j)) (fun j d => aXw1 V c (ix2 j d)) (blkRow R r) d (k + 1) := by
  intro n
  induction n with
  | zero =>
    intro hn R k hk hnk r d
    have hk0 : k = 0 := by omega
    subst hk0
    refine (congrFun (scr1_A V c ⟨0, hn⟩ rfl) (ix2 r d)).trans ?_
    exact pay2_first1 _ _ (adjBlk1 V c ⟨0, hn⟩) (featBlk1 V c ⟨0, hn⟩) R ⟨0, hk⟩ rfl
      (adjBlk1_apply V c ⟨0, hn⟩ R ⟨0, hk⟩ hnk) (featBlk1_apply V c ⟨0, hn⟩ R ⟨0, hk⟩ hnk) r d
  | succ n ih =>
    intro hn R k hk hnk r d
    by_cases h0 : (n + 1) % 8 = 0
    · have hk0 : k = 0 := by omega
      subst hk0
      refine (congrFun (scr1_A V c ⟨n + 1, hn⟩ h0) (ix2 r d)).trans ?_
      exact pay2_first1 _ _ (adjBlk1 V c ⟨n + 1, hn⟩) (featBlk1 V c ⟨n + 1, hn⟩) R ⟨0, hk⟩ rfl
        (adjBlk1_apply V c ⟨n + 1, hn⟩ R ⟨0, hk⟩ hnk) (featBlk1_apply V c ⟨n + 1, hn⟩ R ⟨0, hk⟩ hnk) r d
    · have hk1 : 1 ≤ k := by omega
      refine (congrFun (scr1_BC V c ⟨n + 1, hn⟩ h0) (ix2 r d)).trans ?_
      refine pay2_next1 _ _ (adjBlk1 V c ⟨n + 1, hn⟩) (featBlk1 V c ⟨n + 1, hn⟩) (outsAt1 V c n (Nat.lt_of_succ_lt hn)).2 R ⟨k, hk⟩
        (adjBlk1_apply V c ⟨n + 1, hn⟩ R ⟨k, hk⟩ hnk) (featBlk1_apply V c ⟨n + 1, hn⟩ R ⟨k, hk⟩ hnk) (fun r' d' => ?_) r d
      have hprev := ih (Nat.lt_of_succ_lt hn) R (k - 1) (by omega) (by omega) r' d'
      rw [show k - 1 + 1 = k by omega] at hprev
      exact hprev

abbrev G1 (c : Dev nD) : Vec Ideal S10240x128 .f32 := fun i =>
  max (accBlk (fun i j => aAdj V c (ix2 i j)) (fun j d => aXw1 V c (ix2 j d)) (i 0) (i 1) 8 + aB1 V c (ix2 (0 : Fin 1) (i 1))) 0

theorem flushed1_eq (c : Dev nD) (t : Fin cfg1.N) (hf : (cfg1.win 3).flush t = true) :
    (dat1 (F := Ideal) V c).flushed 3 t = ((cfg1.win 3).blk t).view.read (Elt Ideal) (G1 V c) := by
  have h7 : t.val % 8 = 7 := (flush1_3 t).mp hf
  have hN : t.val < 64 := Nat.lt_of_lt_of_eq t.isLt N_1
  obtain ⟨-, -, -, -, -, -, e0, e1⟩ := idx1 t
  show (cfg1.win 3).cut (grid1.coords t) ((dat1 (F := Ideal) V c).after 3 t) = _
  rw [after1_3, out1_C V c t h7]
  funext y
  show k1_pay3 (F := Ideal) (outsAt1 V c t.val t.isLt).2 (biasBlk1 V c t) y = G1 V c (((cfg1.win 3).blk t).view.emb y)
  obtain ⟨p', q', rfl⟩ : ∃ (p' : Fin 1280) (q' : Fin 128), y = ix2 p' q' := ⟨y 0, y 1, eq_ix2 y⟩
  have hemb : ((cfg1.win 3).blk t).view.emb (ix2 p' q') = ix2 (blkRow ⟨t.val / 8, by omega⟩ p') q' := funext fun a => Fin.ext (by
    match a with
    | ⟨0, _⟩ => show win1_3.index t (0 : Fin 2) * 1280 + 1 * p'.val = 1280 * (t.val / 8) + p'.val; omega
    | ⟨1, _⟩ => show win1_3.index t (1 : Fin 2) * 128 + 1 * q'.val = q'.val; omega)
  rw [hemb]
  refine (pay3_out1 (fun i j => aAdj V c (ix2 i j)) (fun j d => aXw1 V c (ix2 j d)) (outsAt1 V c t.val t.isLt).2 (biasBlk1 V c t) ⟨t.val / 8, by omega⟩
    (fun r d => scratch1_eq V c t.val t.isLt ⟨t.val / 8, by omega⟩ 7 (by omega) (by show t.val = 8 * (t.val / 8) + 7; omega) r d) p' q').trans ?_
  rw [biasBlk1_apply]

theorem final1 (c : Dev nD) (p : Fin 10240) (q : Fin 128) :
    (dat1 (F := Ideal) V c).arrAt 3 cfg1.N (ix2 p q)
      = max (accBlk (fun i j => aAdj V c (ix2 i j)) (fun j d => aXw1 V c (ix2 j d)) p q 8 + aB1 V c (ix2 (0 : Fin 1) q)) 0 :=
  congrFun ((dat1 (F := Ideal) V c).arrAt_eq_of_cover 3 (G1 V c) (flushed1_eq V c) cover1) (ix2 p q)

end Cert.KernelIdeal.Hand

end
-- ==== Proof.ValueR2.lean ====
import proofs.«418084_j71923522339154_1_alg».proof.Proof.FrameR2
import proofs.«418084_j71923522339154_1_alg».proof.Proof.PayIdxA
import proofs.«418084_j71923522339154_1_alg».proof.Proof.ArrNames
import Idealize.ShloMosaic.Lib.ValueIdx
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem hz2 : (![0, 0] : Fin 2 → Nat) = fun _ => 0 := funext fun a => by fin_cases a <;> rfl

abbrev xblk2 (c : Dev nD) (t : Fin cfg2.N) : Vec Ideal S2048x128 .f32 := iblk2 V c 0 t
abbrev wblk2 (c : Dev nD) (t : Fin cfg2.N) : Vec Ideal S128x40 .f32 := iblk2 V c 1 t

def G2 (xp : Vec Ideal S10240x128 .f32) (W : Vec Ideal S128x40 .f32) : Vec Ideal S10240x40 .f32 :=
  fun j => ∑ k : Fin 128, xp (ix2 (j 0) k) * W (ix2 k (j 1))

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem flushed2_eq (c : Dev nD) (t : Fin cfg2.N) :
    (dat2 (F := Ideal) V c).flushed 2 t = ((cfg2.win 2).blk t).view.read (Elt Ideal) (G2 (aHid V c) (aW2 V c)) := by
  show (cfg2.win 2).cut (grid2.coords t) ((dat2 V c).after 2 t) = _
  rw [after2_2]
  unfold out2_2
  rw [View.canon_unit_zero hz2]
  simp only [View.ld_unit_zero (S := S2048x128) hz2, View.ld_unit_zero (S := S128x40) hz2]
  funext y
  obtain ⟨r, d, rfl⟩ : ∃ (r : Fin 2048) (d : Fin 40), y = ix2 r d := ⟨y 0, y 1, eq_ix2 y⟩
  show k2_pay1 (F := Ideal) (xblk2 V c t) (wblk2 V c t) (ix2 r d)
    = G2 (aHid V c) (aW2 V c) (((cfg2.win 2).blk t).view.emb (ix2 r d))
  refine (PayIdx.k2_pay1_apply _ _ r d).trans ?_
  obtain ⟨e0, e1, e2, e3, e4, e5⟩ := idx_facts2 t
  refine Finset.sum_congr rfl fun k _ => ?_
  have hx : ((cfg2.win 0).blk t).view.emb (ix2 r k) = ix2 ((((cfg2.win 2).blk t).view.emb (ix2 r d)) 0) k := by
    funext a; apply Fin.ext
    match a with
    | ⟨0, _⟩ => show win2_0.index t (0 : Fin 2) * 2048 + 1 * r.val = win2_2.index t (0 : Fin 2) * 2048 + 1 * r.val; omega
    | ⟨1, _⟩ => show win2_0.index t (1 : Fin 2) * 128 + 1 * k.val = k.val; omega
  have hw : ((cfg2.win 1).blk t).view.emb (ix2 k d) = ix2 k ((((cfg2.win 2).blk t).view.emb (ix2 r d)) 1) := by
    funext a; apply Fin.ext
    match a with
    | ⟨0, _⟩ => show win2_1.index t (0 : Fin 2) * 128 + 1 * k.val = k.val; omega
    | ⟨1, _⟩ => show win2_1.index t (1 : Fin 2) * 40 + 1 * d.val = win2_2.index t (1 : Fin 2) * 40 + 1 * d.val; omega
  show aHid V c (((cfg2.win 0).blk t).view.emb (ix2 r k)) * aW2 V c (((cfg2.win 1).blk t).view.emb (ix2 k d)) = _
  rw [hx, hw]
  rfl

theorem mem_blk2 (t : Fin cfg2.N) (i : S10240x40.Idx) :
    i ∈ ((cfg2.win 2).blk t).view.set ↔ ∀ a : Fin 2, win2_2.index t a * S2048x40.size a ≤ (i a).val ∧ (i a).val < win2_2.index t a * S2048x40.size a + S2048x40.size a := by
  show i ∈ ((View.whole main_v13).slice (win2_2.rect t)).set ↔ _
  rw [View.set_slice_whole, Rect.mem_set_unit]
  exact Iff.rfl

theorem cover2 (i : S10240x40.Idx) : ∃ t : Fin cfg2.N, (cfg2.win 2).flush t = true ∧ i ∈ ((cfg2.win 2).blk t).view.set := by
  have hi0 : (i 0).val < 10240 := (i 0).isLt
  have hi1 : (i 1).val < 40 := (i 1).isLt
  have hN : cfg2.N = 5 := N_2
  have ht : (i 0).val / 2048 < cfg2.N := by rw [hN]; omega
  obtain ⟨e0, e1, e2, e3, e4, e5⟩ := idx_facts2 ⟨(i 0).val / 2048, ht⟩
  refine ⟨⟨(i 0).val / 2048, ht⟩, flush2_2 _, ?_⟩
  rw [mem_blk2]
  intro a
  match a with
  | ⟨0, _⟩ =>
    show win2_2.index ⟨(i 0).val / 2048, ht⟩ (0 : Fin 2) * 2048 ≤ (i 0).val ∧ (i 0).val < win2_2.index ⟨(i 0).val / 2048, ht⟩ (0 : Fin 2) * 2048 + 2048
    rw [e4]; show (i 0).val / 2048 * 2048 ≤ (i 0).val ∧ (i 0).val < (i 0).val / 2048 * 2048 + 2048; omega
  | ⟨1, _⟩ =>
    show win2_2.index ⟨(i 0).val / 2048, ht⟩ (1 : Fin 2) * 40 ≤ (i 1).val ∧ (i 1).val < win2_2.index ⟨(i 0).val / 2048, ht⟩ (1 : Fin 2) * 40 + 40
    rw [e5]; omega

theorem final2_fun (c : Dev nD) : (dat2 (F := Ideal) V c).arrAt 2 cfg2.N = G2 (aHid V c) (aW2 V c) :=
  (dat2 V c).arrAt_eq_of_cover 2 (G2 (aHid V c) (aW2 V c)) (fun t _ => flushed2_eq V c t) cover2

theorem final2 (c : Dev nD) (p : Fin 10240) (q : Fin 40) :
    (dat2 (F := Ideal) V c).arrAt 2 cfg2.N (ix2 p q) = ∑ d : Fin 128, aHid V c (ix2 p d) * aW2 V c (ix2 d q) :=
  congrFun (final2_fun V c) (ix2 p q)

end Cert.KernelIdeal.Hand

end
-- ==== Proof.FrameR3Pieces.lean ====
import proofs.«418084_j71923522339154_1_alg».proof.Proof.FrameR3
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hzR3 : (![0, 0] : Fin 2 → Nat) = fun _ => 0 := funext fun a => by fin_cases a <;> rfl

section

variable (c : Dev nD) (i : grid3.Coords) (arg2 : Memref sig .tc .vmem S1280x1280 .bf16) (harg2 : arg2.IsWhole) (arg3 : Memref sig .tc .vmem S1280x40 .f32) (harg3 : arg3.IsWhole) (arg4 : Memref sig .tc .vmem S1x40 .f32) (harg4 : arg4.IsWhole) (arg5 : Memref sig .tc .vmem S1280x40 .f32) (harg5 : arg5.IsWhole) (arg6 : Memref sig .tc .vmem S1280x40 .f32) (harg6 : arg6.IsWhole)

theorem sout3_A_0_eq (hc0 : cond3_0 i) (hc1 : ¬cond3_1 i)
    (x0 : Vec F S1280x1280 .bf16) (x1 : Vec F S1280x40 .f32) (x2 : Vec F S1x40 .f32) :
    sout3_A_0 c i arg2 harg2 arg3 harg3 arg4 harg4 arg5 harg5 arg6 harg6 hc0 hc1 x0 x1 x2 = k3_pay2 x0 x1 (k3_pay1 (F := F)) := by
  unfold sout3_A_0
  rw [View.read_writes_eq_canon _ _ _ (scover3_A_0 c i arg2 harg2 arg3 harg3 arg4 harg4 arg5 harg5 arg6 harg6 hc0 hc1 x0 x1 x2)]
  unfold kernelRun3_A
  dsimp only
  sl_unfold_words
  rw [View.canon_cons_unit_zero (S := S1280x40) hzR3, View.readCov_unit_zero (S := S1280x40) _ hzR3]
  simp only [View.readAt_eq_ld, harg2.read_unread, harg3.read_unread, harg4.read_unread, View.ld_unit_zero (S := S1280x1280) hzR3, View.ld_unit_zero (S := S1280x40) hzR3, View.ld_unit_zero (S := S1x40) hzR3]

theorem sout3_B_0_eq (hc0 : ¬cond3_0 i) (hc1 : ¬cond3_1 i)
    (x0 : Vec F S1280x1280 .bf16) (x1 : Vec F S1280x40 .f32) (x2 : Vec F S1x40 .f32) (xs0 : Vec F S1280x40 .f32) :
    sout3_B_0 c i arg2 harg2 arg3 harg3 arg4 harg4 arg5 harg5 arg6 harg6 hc0 hc1 x0 x1 x2 xs0 = k3_pay2 x0 x1 xs0 := by
  unfold sout3_B_0
  rw [View.read_writes_eq_canon _ _ _ (scover3_B_0 c i arg2 harg2 arg3 harg3 arg4 harg4 arg5 harg5 arg6 harg6 hc0 hc1 x0 x1 x2 xs0)]
  unfold kernelRun3_B
  dsimp only
  sl_unfold_words
  rw [View.canon_unit_zero hzR3]
  simp only [View.readAt_eq_ld, harg2.read_unread, harg3.read_unread, harg4.read_unread, harg6.read_unread, View.ld_unit_zero (S := S1280x1280) hzR3, View.ld_unit_zero (S := S1280x40) hzR3, View.ld_unit_zero (S := S1x40) hzR3, View.readCov_unit_zero (S := S1280x40) _ hzR3]

theorem sout3_C_0_eq (hc0 : ¬cond3_0 i) (hc1 : cond3_1 i)
    (x0 : Vec F S1280x1280 .bf16) (x1 : Vec F S1280x40 .f32) (x2 : Vec F S1x40 .f32) (xs0 : Vec F S1280x40 .f32) :
    sout3_C_0 c i arg2 harg2 arg3 harg3 arg4 harg4 arg5 harg5 arg6 harg6 hc0 hc1 x0 x1 x2 xs0 = k3_pay2 x0 x1 xs0 := by
  unfold sout3_C_0
  rw [View.read_writes_eq_canon _ _ _ (scover3_C_0 c i arg2 harg2 arg3 harg3 arg4 harg4 arg5 harg5 arg6 harg6 hc0 hc1 x0 x1 x2 xs0)]
  unfold kernelRun3_C
  dsimp only
  sl_unfold_words
  rw [View.canon_unit_zero hzR3]
  simp only [View.readAt_eq_ld, harg2.read_unread, harg3.read_unread, harg4.read_unread, harg6.read_unread, View.ld_unit_zero (S := S1280x1280) hzR3, View.ld_unit_zero (S := S1280x40) hzR3, View.ld_unit_zero (S := S1x40) hzR3, View.readCov_unit_zero (S := S1280x40) _ hzR3]

theorem out3_C_3_eq (hc0 : ¬cond3_0 i) (hc1 : cond3_1 i)
    (x0 : Vec F S1280x1280 .bf16) (x1 : Vec F S1280x40 .f32) (x2 : Vec F S1x40 .f32) (xs0 : Vec F S1280x40 .f32) :
    out3_C_3 c i arg2 harg2 arg3 harg3 arg4 harg4 arg5 harg5 arg6 harg6 hc0 hc1 x0 x1 x2 xs0 = k3_pay3 (k3_pay2 x0 x1 xs0) x2 := by
  unfold out3_C_3
  rw [View.read_writes_eq_canon _ _ _ (cover3_C_3 c i arg2 harg2 arg3 harg3 arg4 harg4 arg5 harg5 arg6 harg6 hc0 hc1 x0 x1 x2 xs0)]
  unfold kernelRun3_C
  dsimp only
  sl_unfold_words
  rw [View.canon_unit_zero hzR3]
  simp only [View.readAt_eq_ld, harg2.read_unread, harg3.read_unread, harg4.read_unread, harg6.read_unread, View.ld_unit_zero (S := S1280x1280) hzR3, View.ld_unit_zero (S := S1280x40) hzR3, View.ld_unit_zero (S := S1x40) hzR3, View.readCov_unit_zero (S := S1280x40) _ hzR3]

end

end Cert.KernelIdeal.Hand

end
-- ==== Proof.ValueR3Blocks.lean ====
import proofs.«418084_j71923522339154_1_alg».proof.Proof.FrameR3Runs
import proofs.«418084_j71923522339154_1_alg».proof.Proof.ArrNames
import proofs.«418084_j71923522339154_1_alg».proof.Proof.ValueDefs
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.Gcn (blkRow)

variable (V : (c : Dev nD) → (b : Ref sig .tc) → Buf (Elt Ideal) ((c : Thread nD τ).loc b))

abbrev adjBlk3 (c : Dev nD) (t : Fin cfg3.N) : Vec Ideal S1280x1280 .bf16 := iblk3 V c 0 t
abbrev featBlk3 (c : Dev nD) (t : Fin cfg3.N) : Vec Ideal S1280x40 .f32 := iblk3 V c 1 t
abbrev biasBlk3 (c : Dev nD) (t : Fin cfg3.N) : Vec Ideal S1x40 .f32 := iblk3 V c 2 t

theorem idx3 : ∀ t : Fin cfg3.N, win3_0.index t (0 : Fin 2) = t.val / 8 ∧ win3_0.index t (1 : Fin 2) = t.val % 8
    ∧ win3_1.index t (0 : Fin 2) = t.val % 8 ∧ win3_1.index t (1 : Fin 2) = 0
    ∧ win3_2.index t (0 : Fin 2) = 0 ∧ win3_2.index t (1 : Fin 2) = 0
    ∧ win3_3.index t (0 : Fin 2) = t.val / 8 ∧ win3_3.index t (1 : Fin 2) = 0 :=
  (by decide +kernel : ∀ t : Fin grid3.N, _)

theorem adjBlk3_apply (c : Dev nD) (t : Fin cfg3.N) (R k : Fin 8) (ht : t.val = 8 * R.val + k.val) (r j : Fin 1280) :
    adjBlk3 V c t (ix2 r j) = aAdj V c (ix2 (blkRow R r) (blkRow k j)) := by
  obtain ⟨e0, e1, -⟩ := idx3 t
  show iblk3 V c 0 t (ix2 r j) = _
  unfold iblk3
  rw [View.read_apply]
  show V c main_v7 _ = V c main_v7 _
  refine congrArg (V c main_v7) (funext fun a => Fin.ext ?_)
  match a with
  | ⟨0, _⟩ => show win3_0.index t (0 : Fin 2) * 1280 + 1 * r.val = 1280 * R.val + r.val; omega
  | ⟨1, _⟩ => show win3_0.index t (1 : Fin 2) * 1280 + 1 * j.val = 1280 * k.val + j.val; omega

theorem featBlk3_apply (c : Dev nD) (t : Fin cfg3.N) (R k : Fin 8) (ht : t.val = 8 * R.val + k.val) (j : Fin 1280) (d : Fin 40) :
    featBlk3 V c t (ix2 j d) = aHw2 V c (ix2 (blkRow k j) d) := by
  obtain ⟨-, -, e0, e1, -⟩ := idx3 t
  show iblk3 V c 1 t (ix2 j d) = _
  unfold iblk3
  rw [View.read_apply]
  show V c main_v13 _ = V c main_v13 _
  refine congrArg (V c main_v13) (funext fun a => Fin.ext ?_)
  match a with
  | ⟨0, _⟩ => show win3_1.index t (0 : Fin 2) * 1280 + 1 * j.val = 1280 * k.val + j.val; omega
  | ⟨1, _⟩ => show win3_1.index t (1 : Fin 2) * 40 + 1 * d.val = d.val; omega

theorem biasBlk3_apply (c : Dev nD) (t : Fin cfg3.N) (d : Fin 40) :
    biasBlk3 V c t (ix2 (0 : Fin 1) d) = aB2 V c (ix2 (0 : Fin 1) d) := by
  obtain ⟨-, -, -, -, e0, e1, -⟩ := idx3 t
  show iblk3 V c 2 t (ix2 (0 : Fin 1) d) = _
  unfold iblk3
  rw [View.read_apply]
  show V c main_v10 _ = V c main_v10 _
  refine congrArg (V c main_v10) (funext fun a => Fin.ext ?_)
  match a with
  | ⟨0, _⟩ => show win3_2.index t (0 : Fin 2) * 1 + 1 * 0 = 0; omega
  | ⟨1, _⟩ => show win3_2.index t (1 : Fin 2) * 40 + 1 * d.val = d.val; omega

theorem mem_blk3 (t : Fin cfg3.N) (i : S10240x40.Idx) :
    i ∈ ((cfg3.win 3).blk t).view.set ↔ ∀ a : Fin 2, win3_3.index t a * S1280x40.size a ≤ (i a).val ∧ (i a).val < win3_3.index t a * S1280x40.size a + S1280x40.size a := by
  show i ∈ ((View.whole main_v14).slice (win3_3.rect t)).set ↔ _
  rw [View.set_slice_whole, Rect.mem_set_unit]
  exact Iff.rfl

def lastPt3 (R : Fin 8) : Fin cfg3.N := ⟨8 * R.val + 7, by rw [show cfg3.N = 64 from N_3]; omega⟩

theorem lastPt3_val (R : Fin 8) : (lastPt3 R).val = 8 * R.val + 7 := rfl

theorem cover3 (i : S10240x40.Idx) :
    ∃ t : Fin cfg3.N, (cfg3.win 3).flush t = true ∧ i ∈ ((cfg3.win 3).blk t).view.set := by
  have hi0 : (i 0).val < 10240 := (i 0).isLt
  have hi1 : (i 1).val < 40 := (i 1).isLt
  refine ⟨lastPt3 ⟨(i 0).val / 1280, by omega⟩, (flush3_3 _).mpr (by rw [lastPt3_val]; omega), ?_⟩
  obtain ⟨-, -, -, -, -, -, e0, e1⟩ := idx3 (lastPt3 ⟨(i 0).val / 1280, by omega⟩)
  rw [lastPt3_val] at e0
  rw [mem_blk3]
  intro a
  match a with
  | ⟨0, _⟩ =>
    show win3_3.index (lastPt3 ⟨(i 0).val / 1280, by omega⟩) (0 : Fin 2) * 1280 ≤ (i 0).val ∧ (i 0).val < win3_3.index (lastPt3 ⟨(i 0).val / 1280, by omega⟩) (0 : Fin 2) * 1280 + 1280
    dsimp only at e0
    omega
  | ⟨1, _⟩ =>
    show win3_3.index (lastPt3 ⟨(i 0).val / 1280, by omega⟩) (1 : Fin 2) * 40 ≤ (i 1).val ∧ (i 1).val < win3_3.index (lastPt3 ⟨(i 0).val / 1280, by omega⟩) (1 : Fin 2) * 40 + 40
    omega

end Cert.KernelIdeal.Hand

end
-- ==== Proof.ValueR3.lean ====
import proofs.«418084_j71923522339154_1_alg».proof.Proof.FrameR3Pieces
import proofs.«418084_j71923522339154_1_alg».proof.Proof.ValueR1Arith
import proofs.«418084_j71923522339154_1_alg».proof.Proof.ValueR3Blocks
import Idealize.ShloMosaic.Lib.ValueIdx
import Idealize.ShloMosaic.Lib.Pipeline.Value

noncomputable section

namespace Cert.KernelIdeal.Hand

open Cert.KernelIdeal Cert.KernelIdeal.Gen Cert.KernelIdeal.PayIdx
open Idealize.ShloMosaic Idealize.ShloMosaic.TcCoe Idealize.SL.Sem Idealize.ShloMosaic.ValueIdx
open Idealize.ShloMosaic.Pipeline (Dat)
open Cert.Gcn (accBlk partBlk blkRow accBlk_zero accBlk_succ)
open scoped BigOperators

variable (V : (c : Dev nD) → (b : Ref sig .tc) → Buf (Elt Ideal) ((c : Thread nD τ).loc b))

theorem scr3_A (c : Dev nD) (t : Fin cfg3.N) (h0 : t.val % 8 = 0) :
    (outsAt3 V c t.val t.isLt).2 = k3_pay2 (F := Ideal) (adjBlk3 V c t) (featBlk3 V c t) (k3_pay1 (F := Ideal)) := by
  have h1 : ¬t.val % 8 = 7 := by omega
  rw [outsAt3_A V c t h0 h1]
  dsimp only
  exact sout3_A_0_eq (F := Ideal) c (grid3.coords t) (ms3_0 t) (hs3_0 t) (ms3_1 t) (hs3_1 t) (ms3_2 t) (hs3_2 t) (ms3_3 t) (hs3_3 t) scM3_0 (Memref.isWhole_whole cc3_scratch0) ((hcond3_0 t).mpr h0) (fun h => h1 ((hcond3_1 t).mp h)) (iblk3 V c 0 t) (iblk3 V c 1 t) (iblk3 V c 2 t)

theorem scr3_BC (c : Dev nD) (t : Fin cfg3.N) (h0 : ¬t.val % 8 = 0) :
    (outsAt3 V c t.val t.isLt).2 = k3_pay2 (F := Ideal) (adjBlk3 V c t) (featBlk3 V c t)
      (outsAt3 V c (t.val - 1) (Nat.lt_of_le_of_lt (Nat.sub_le _ _) t.isLt)).2 := by
  by_cases h1 : t.val % 8 = 7
  · rw [outsAt3_C V c t h0 h1]
    dsimp only
    exact sout3_C_0_eq (F := Ideal) c (grid3.coords t) (ms3_0 t) (hs3_0 t) (ms3_1 t) (hs3_1 t) (ms3_2 t) (hs3_2 t) (ms3_3 t) (hs3_3 t) scM3_0 (Memref.isWhole_whole cc3_scratch0) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2
  · rw [outsAt3_B V c t h0 h1]
    dsimp only
    exact sout3_B_0_eq (F := Ideal) c (grid3.coords t) (ms3_0 t) (hs3_0 t) (ms3_1 t) (hs3_1 t) (ms3_2 t) (hs3_2 t) (ms3_3 t) (hs3_3 t) scM3_0 (Memref.isWhole_whole cc3_scratch0) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2

theorem out3_C (c : Dev nD) (t : Fin cfg3.N) (h1 : t.val % 8 = 7) :
    (outsAt3 V c t.val t.isLt).1 = k3_pay3 (F := Ideal) (outsAt3 V c t.val t.isLt).2 (biasBlk3 V c t) := by
  have h0 : ¬t.val % 8 = 0 := by omega
  rw [outsAt3_C V c t h0 h1]
  dsimp only
  rw [sout3_C_0_eq (F := Ideal) c (grid3.coords t) (ms3_0 t) (hs3_0 t) (ms3_1 t) (hs3_1 t) (ms3_2 t) (hs3_2 t) (ms3_3 t) (hs3_3 t) scM3_0 (Memref.isWhole_whole cc3_scratch0) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2]
  exact out3_C_3_eq (F := Ideal) c (grid3.coords t) (ms3_0 t) (hs3_0 t) (ms3_1 t) (hs3_1 t) (ms3_2 t) (hs3_2 t) (ms3_3 t) (hs3_3 t) scM3_0 (Memref.isWhole_whole cc3_scratch0) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2

theorem scratch3_eq (c : Dev nD) : ∀ (n : ℕ) (hn : n < cfg3.N) (R : Fin 8) (k : ℕ) (hk : k < 8), n = 8 * R.val + k →
    ∀ (r : Fin 1280) (d : Fin 40), (outsAt3 V c n hn).2 (ix2 r d)
      = accBlk (fun i j => aAdj V c (ix2 i j)) (fun j d => aHw2 V c (ix2 j d)) (blkRow R r) d (k + 1) := by
  intro n
  induction n with
  | zero =>
    intro hn R k hk hnk r d
    have hk0 : k = 0 := by omega
    subst hk0
    refine (congrFun (scr3_A V c ⟨0, hn⟩ rfl) (ix2 r d)).trans ?_
    exact pay2_first3 _ _ (adjBlk3 V c ⟨0, hn⟩) (featBlk3 V c ⟨0, hn⟩) R ⟨0, hk⟩ rfl
      (adjBlk3_apply V c ⟨0, hn⟩ R ⟨0, hk⟩ hnk) (featBlk3_apply V c ⟨0, hn⟩ R ⟨0, hk⟩ hnk) r d
  | succ n ih =>
    intro hn R k hk hnk r d
    by_cases h0 : (n + 1) % 8 = 0
    · have hk0 : k = 0 := by omega
      subst hk0
      refine (congrFun (scr3_A V c ⟨n + 1, hn⟩ h0) (ix2 r d)).trans ?_
      exact pay2_first3 _ _ (adjBlk3 V c ⟨n + 1, hn⟩) (featBlk3 V c ⟨n + 1, hn⟩) R ⟨0, hk⟩ rfl
        (adjBlk3_apply V c ⟨n + 1, hn⟩ R ⟨0, hk⟩ hnk) (featBlk3_apply V c ⟨n + 1, hn⟩ R ⟨0, hk⟩ hnk) r d
    · have hk1 : 1 ≤ k := by omega
      refine (congrFun (scr3_BC V c ⟨n + 1, hn⟩ h0) (ix2 r d)).trans ?_
      refine pay2_next3 _ _ (adjBlk3 V c ⟨n + 1, hn⟩) (featBlk3 V c ⟨n + 1, hn⟩) (outsAt3 V c n (Nat.lt_of_succ_lt hn)).2 R ⟨k, hk⟩
        (adjBlk3_apply V c ⟨n + 1, hn⟩ R ⟨k, hk⟩ hnk) (featBlk3_apply V c ⟨n + 1, hn⟩ R ⟨k, hk⟩ hnk) (fun r' d' => ?_) r d
      have hprev := ih (Nat.lt_of_succ_lt hn) R (k - 1) (by omega) (by omega) r' d'
      rw [show k - 1 + 1 = k by omega] at hprev
      exact hprev

abbrev G3 (c : Dev nD) : Vec Ideal S10240x40 .f32 := fun i =>
  Cert.Gcn.logSoftmax (fun c' => accBlk (fun i j => aAdj V c (ix2 i j)) (fun j d => aHw2 V c (ix2 j d)) (i 0) c' 8 + aB2 V c (ix2 (0 : Fin 1) c')) (i 1)

theorem flushed3_eq (c : Dev nD) (t : Fin cfg3.N) (hf : (cfg3.win 3).flush t = true) :
    (dat3 (F := Ideal) V c).flushed 3 t = ((cfg3.win 3).blk t).view.read (Elt Ideal) (G3 V c) := by
  have h7 : t.val % 8 = 7 := (flush3_3 t).mp hf
  have hN : t.val < 64 := Nat.lt_of_lt_of_eq t.isLt N_3
  obtain ⟨-, -, -, -, -, -, e0, e1⟩ := idx3 t
  show (cfg3.win 3).cut (grid3.coords t) ((dat3 (F := Ideal) V c).after 3 t) = _
  rw [after3_3, out3_C V c t h7]
  funext y
  show k3_pay3 (F := Ideal) (outsAt3 V c t.val t.isLt).2 (biasBlk3 V c t) y = G3 V c (((cfg3.win 3).blk t).view.emb y)
  obtain ⟨p', q', rfl⟩ : ∃ (p' : Fin 1280) (q' : Fin 40), y = ix2 p' q' := ⟨y 0, y 1, eq_ix2 y⟩
  have hemb : ((cfg3.win 3).blk t).view.emb (ix2 p' q') = ix2 (blkRow ⟨t.val / 8, by omega⟩ p') q' := funext fun a => Fin.ext (by
    match a with
    | ⟨0, _⟩ => show win3_3.index t (0 : Fin 2) * 1280 + 1 * p'.val = 1280 * (t.val / 8) + p'.val; omega
    | ⟨1, _⟩ => show win3_3.index t (1 : Fin 2) * 40 + 1 * q'.val = q'.val; omega)
  rw [hemb]
  refine (pay3_out3 (fun i j => aAdj V c (ix2 i j)) (fun j d => aHw2 V c (ix2 j d)) (outsAt3 V c t.val t.isLt).2 (biasBlk3 V c t) ⟨t.val / 8, by omega⟩
    (fun r d => scratch3_eq V c t.val t.isLt ⟨t.val / 8, by omega⟩ 7 (by omega) (by show t.val = 8 * (t.val / 8) + 7; omega) r d) p' q').trans ?_
  have hb : ∀ c' : Fin 40, biasBlk3 V c t (ix2 (0 : Fin 1) c') = aB2 V c (ix2 (0 : Fin 1) c') := fun c' => biasBlk3_apply V c t c'
  simp only [hb]

theorem final3 (c : Dev nD) (p : Fin 10240) (q : Fin 40) :
    (dat3 (F := Ideal) V c).arrAt 3 cfg3.N (ix2 p q)
      = Cert.Gcn.logSoftmax (fun c' => accBlk (fun i j => aAdj V c (ix2 i j)) (fun j d => aHw2 V c (ix2 j d)) p c' 8 + aB2 V c (ix2 (0 : Fin 1) c')) q :=
  congrFun ((dat3 (F := Ideal) V c).arrAt_eq_of_cover 3 (G3 V c) (flushed3_eq V c) cover3) (ix2 p q)

end Cert.KernelIdeal.Hand

end
-- ==== Proof.HostIdx.lean ====
import proofs.«418084_j71923522339154_1_alg».proof.Proof.RunHost
import proofs.«418084_j71923522339154_1_alg».proof.Proof.ArrNames
import proofs.«418084_j71923522339154_1_alg».proof.Proof.Gen.KernelIdeal.Regions
import proofs.«418084_j71923522339154_1_alg».proof.Proof.LibGraph
import proofs.«418084_j71923522339154_1_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.Lib.KernelVsHost
import Idealize.ShloMosaic.Lib.IdealHost
import Idealize.ShloMosaic.PureOps.Ideal.Laws

noncomputable section

namespace Cert.KernelIdeal.Hand

open Idealize.ShloMosaic Idealize.ShloMosaic.ValueIdx Cert.KernelIdeal Cert.KernelIdeal.Gen
open Idealize.ShloMosaic.TcCoe
open scoped BigOperators

section Generic
variable {F : FTy → Type} [FloatOps F]

theorem slice_apply (x : Vec F S10240x40 .f32) (p : Fin 10000) (q : Fin 40) :
    (extractStridedSlice S10000x40 ![0, 0] x slices_S10240x40_S10000x40_0_0) (ix2 p q) = x (ix2 ⟨p.val, by omega⟩ q) := by
  refine extractStridedSlice_apply _ x _ _ _ (fun a => ?_)
  match a with
  | ⟨0, _⟩ => show p.val = 0 + p.val; omega
  | ⟨1, _⟩ => show q.val = 0 + q.val; omega

end Generic

variable (m : (ℓ : Loc nD τ sig) → Buf (Elt Ideal) ℓ)

theorem V3_main_arg2 (c : Dev nD) : aW1 (V3 m) c = mW1 m c :=
  (Gen.V3_of m c main_arg2 (by decide)).trans <| (Gen.V2_of m c main_arg2 (by decide)).trans <| (Gen.V1_of m c main_arg2 (by decide)).trans rfl

theorem V3_main_arg4 (c : Dev nD) : aW2 (V3 m) c = mW2 m c :=
  (Gen.V3_of m c main_arg4 (by decide)).trans <| (Gen.V2_of m c main_arg4 (by decide)).trans <| (Gen.V1_of m c main_arg4 (by decide)).trans rfl

theorem V3_main_v9_term (c : Dev nD) : aB1 (V3 m) c = shapeCast S1x128 (mB1 m c) shapeCasts_S128_S1x128 := by
  show StableHlo.after hostOps0_2 (W2 m c) (Proc.devRef .tc main_v9) = _
  after_results
  rfl

theorem V3_main_v9 (c : Dev nD) (d : Fin 128) : aB1 (V3 m) c (ix2 (0 : Fin 1) d) = mB1 m c (ix1 d) := by
  refine (congrFun (V3_main_v9_term m c) (ix2 (0 : Fin 1) d)).trans ?_
  refine shapeCast_apply _ _ _ (ix1 d) ?_
  rw [Shape.rowMajor_val_two, Shape.rowMajor_val_one]
  show d.val = 0 * 128 + d.val
  omega

theorem V3_main_v10_term (c : Dev nD) : aB2 (V3 m) c = shapeCast S1x40 (mB2 m c) shapeCasts_S40_S1x40 := by
  show StableHlo.after hostOps0_2 (W2 m c) (Proc.devRef .tc main_v10) = _
  after_results
  rfl

theorem V3_main_v10 (c : Dev nD) (q : Fin 40) : aB2 (V3 m) c (ix2 (0 : Fin 1) q) = mB2 m c (ix1 q) := by
  refine (congrFun (V3_main_v10_term m c) (ix2 (0 : Fin 1) q)).trans ?_
  refine shapeCast_apply _ _ _ (ix1 q) ?_
  rw [Shape.rowMajor_val_two, Shape.rowMajor_val_one]
  show q.val = 0 * 40 + q.val
  omega

theorem V3_main_v8_term (c : Dev nD) : aXp (V3 m) c = pad S10240x512 ![0, 0] ![240, 0] ![0, 0] (mX m c)
    (sitofp (F := Ideal) .f32 (constantI S_ 32 0#32)) pads_S10000x512_S10240x512_02400_000 h_S_ := by
  show StableHlo.after hostOps0_2 (W2 m c) (Proc.devRef .tc main_v8) = _
  after_results
  rfl

theorem pad_rows_apply (x : Vec Ideal S10000x512 .f32) (v : Vec Ideal S_ .f32) (i : Fin 10240) (k : Fin 512) :
    (pad S10240x512 ![0, 0] ![240, 0] ![0, 0] x v pads_S10000x512_S10240x512_02400_000 h_S_ (ix2 i k) : EReal)
      = if h : i.val < 10000 then x (ix2 ⟨i.val, h⟩ k) else v (Shape.Idx.first h_S_) := by
  by_cases h : i.val < 10000
  · rw [dif_pos h]
    refine pad_apply_of_inside _ _ _ x v _ h_S_ _ (ix2 ⟨i.val, h⟩ k) (fun a => ?_)
    match a with
    | ⟨0, _⟩ => show i.val = 0 + i.val * (0 + 1); omega
    | ⟨1, _⟩ => show k.val = 0 + k.val * (0 + 1); omega
  · rw [dif_neg h]
    refine pad_apply_of_not_inside _ _ _ x v _ h_S_ _ (0 : Fin 2) ?_
    show ¬(0 ≤ i.val ∧ (i.val - 0) % (0 + 1) = 0 ∧ (i.val - 0) / (0 + 1) < 10000)
    omega

theorem V3_main_v8 (c : Dev nD) (i : Fin 10240) (k : Fin 512) :
    aXp (V3 m) c (ix2 i k) = Cert.Gcn.xpad (fun i k => mX m c (ix2 i k)) i k := by
  refine (congrFun (V3_main_v8_term m c) (ix2 i k)).trans ?_
  rw [pad_rows_apply]
  unfold Cert.Gcn.xpad
  by_cases h : i.val < 10000
  · rw [dif_pos h, dif_pos h]
  · rw [dif_neg h, dif_neg h]
    exact sitofp_zero (φ := .f32)

end Cert.KernelIdeal.Hand

end
-- ==== Proof.HostIdxB.lean ====
import proofs.«418084_j71923522339154_1_alg».proof.Proof.RunHost
import proofs.«418084_j71923522339154_1_alg».proof.Proof.ArrNames
import proofs.«418084_j71923522339154_1_alg».proof.Proof.Gen.KernelIdeal.Regions
import proofs.«418084_j71923522339154_1_alg».proof.Proof.LibGraph
import proofs.«418084_j71923522339154_1_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.Lib.KernelVsHost
import Idealize.ShloMosaic.Lib.IdealHost
import Idealize.ShloMosaic.PureOps.Ideal.Laws

noncomputable section

namespace Cert.KernelIdeal.Hand

open Idealize.ShloMosaic Idealize.ShloMosaic.ValueIdx Cert.KernelIdeal Cert.KernelIdeal.Gen
open Idealize.ShloMosaic.TcCoe
open scoped BigOperators

theorem adj_read (a7 a6 : IVec S640000 32) (w : Vec Ideal S640000 .f32) (i j : Fin 10240) :
    (truncf (F := Ideal) .bf16 (shapeCast S10240x10240
      (Host.scatterAdd (F := Ideal) scatter_S104857600_S640000x1_S640000_n_0_0_1
        (broadcastInDim S104857600 ![] bcast_S_S104857600 (constant (F := Ideal) S_ .f32 0x00000000#32))
        (broadcastInDim S640000x1 ![0] bcast_S640000_S640000x1_0
          (addi (muli a7 (broadcastInDim S640000 ![] bcast_S_S640000 (constantI S_ 32 10240#32))) a6))
        w)
      shapeCasts_S104857600_S10240x10240) bitsLt_bf16_f32 (ix2 i j) : EReal)
    = ∑ e : Fin 640000, if (a7 (ix1 e) * 10240#32 + a6 (ix1 e)).toInt = ((i.val * 10240 + j.val : ℕ) : ℤ) then (w (ix1 e) : EReal) else 0 := by
  have hij : i.val * 10240 + j.val < 104857600 := by have := i.isLt; have := j.isLt; omega
  refine (truncf_apply _ bitsLt_bf16_f32 (ix2 i j)).trans ?_
  refine (shapeCast_apply _ shapeCasts_S104857600_S10240x10240 (ix2 i j) (ix1 (⟨i.val * 10240 + j.val, hij⟩ : Fin 104857600)) ?_).trans ?_
  · rw [Shape.rowMajor_val_two, Shape.rowMajor_val_one]
    rfl
  · rw [GraphIdx.scatterAdd_vec_apply _ rfl rfl rfl rfl]
    have h0 : (broadcastInDim S104857600 ![] bcast_S_S104857600 (constant (F := Ideal) S_ .f32 0x00000000#32)
        (ix1 (⟨i.val * 10240 + j.val, hij⟩ : Fin 104857600)) : EReal) = 0 :=
      (broadcastInDim_scalar_apply _ _ _).trans Ideal.ofBits_zero_f32
    rw [h0, zero_add]
    refine Finset.sum_congr rfl (fun p _ => ?_)
    have hp : broadcastInDim S640000x1 ![0] bcast_S640000_S640000x1_0
        (addi (muli a7 (broadcastInDim S640000 ![] bcast_S_S640000 (constantI S_ 32 10240#32))) a6) (ix2 p (0 : Fin 1))
        = a7 (ix1 p) * 10240#32 + a6 (ix1 p) := by
      refine (broadcastInDim_apply _ bcast_S640000_S640000x1_0 _ (ix2 p (0 : Fin 1)) (ix1 p) (fun a => ?_)).trans rfl
      match a with
      | ⟨0, _⟩ => show p.val = if (640000 : ℕ) = 1 then 0 else p.val; rw [if_neg (by decide)]
    rw [hp]

variable (m : (ℓ : Loc nD τ sig) → Buf (Elt Ideal) ℓ)

def flatOf (c : Dev nD) (e : Fin 640000) : ℤ := (mDst m c (ix1 e) * 10240#32 + mSrc m c (ix1 e)).toInt

theorem V3_main_v7_term (c : Dev nD) : aAdj (V3 m) c =
    truncf (F := Ideal) .bf16 (shapeCast S10240x10240
      (Host.scatterAdd (F := Ideal) scatter_S104857600_S640000x1_S640000_n_0_0_1
        (broadcastInDim S104857600 ![] bcast_S_S104857600 (constant (F := Ideal) S_ .f32 0x00000000#32))
        (broadcastInDim S640000x1 ![0] bcast_S640000_S640000x1_0
          (addi (muli (mDst m c) (broadcastInDim S640000 ![] bcast_S_S640000 (constantI S_ 32 10240#32))) (mSrc m c)))
        (mW m c))
      shapeCasts_S104857600_S10240x10240) bitsLt_bf16_f32 := by
  show StableHlo.after hostOps0_2 (W2 m c) (Proc.devRef .tc main_v7) = _
  after_results
  rfl

theorem V3_main_v7 (c : Dev nD) (i j : Fin 10240) :
    aAdj (V3 m) c (ix2 i j) = Cert.Gcn.adj (fun e => mW m c (ix1 e)) (flatOf m c) i j := by
  refine (congrFun (V3_main_v7_term m c) (ix2 i j)).trans ?_
  rw [adj_read]
  unfold Cert.Gcn.adj flatOf
  rfl

end Cert.KernelIdeal.Hand

end
-- ==== Proof.KernelValue.lean ====
import proofs.«418084_j71923522339154_1_alg».proof.Proof.Run
import proofs.«418084_j71923522339154_1_alg».proof.Proof.ValueR0
import proofs.«418084_j71923522339154_1_alg».proof.Proof.ValueR1
import proofs.«418084_j71923522339154_1_alg».proof.Proof.ValueR2
import proofs.«418084_j71923522339154_1_alg».proof.Proof.ValueR3
import proofs.«418084_j71923522339154_1_alg».proof.Proof.HostIdx
import proofs.«418084_j71923522339154_1_alg».proof.Proof.HostIdxB
import proofs.«418084_j71923522339154_1_alg».proof.Proof.ValueDefs
import proofs.«418084_j71923522339154_1_alg».proof.Proof.ArrNames
import Idealize.ShloMosaic.Lib.ValueIdx
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.Sem

section Value
open Idealize.ShloMosaic.ValueIdx
variable (m : (ℓ : Loc nD τ sig) → Buf (Elt Ideal) ℓ) (c : Dev nD)

abbrev xOf : Fin 10000 → Fin 512 → EReal := fun i k => mX m c (ix2 i k)
abbrev wOf : Fin 640000 → EReal := fun e => mW m c (ix1 e)
abbrev W1Of : Fin 512 → Fin 128 → EReal := fun k d => mW1 m c (ix2 k d)
abbrev b1Of : Fin 128 → EReal := fun d => mB1 m c (ix1 d)
abbrev W2Of : Fin 128 → Fin 40 → EReal := fun d q => mW2 m c (ix2 d q)
abbrev b2Of : Fin 40 → EReal := fun q => mB2 m c (ix1 q)

theorem V4_adj : aAdj (V4 m) c = aAdj (V3 m) c := W4_of_ne m c main_v7 (by decide)
theorem V6_adj : aAdj (V6 m) c = aAdj (V3 m) c :=
  (W6_of_ne m c main_v7 (by decide)).trans <|
  ((W5_arr m c 0).trans (((dat1 (V4 m) c).arrAt_in 0 rfl _).trans (A_eq1 (V4 m) c 0))).trans (V4_adj m c)

theorem V4_b1 : aB1 (V4 m) c = aB1 (V3 m) c := W4_of_ne m c main_v9 (by decide)
theorem V6_b2 : aB2 (V6 m) c = aB2 (V3 m) c :=
  (W6_of_ne m c main_v10 (by decide)).trans <| (W5_of_ne m c main_v10 (by decide)).trans (W4_of_ne m c main_v10 (by decide))

theorem V5_w2 : aW2 (V5 m) c = mW2 m c :=
  (W5_of_ne m c main_arg4 (by decide)).trans <| (W4_of_ne m c main_arg4 (by decide)).trans (V3_main_arg4 m c)

theorem V4_xw1 (p : Fin 10240) (d : Fin 128) :
    aXw1 (V4 m) c (ix2 p d) = Cert.Gcn.xw1K (xOf m c) (W1Of m c) p d := by
  have e1 : aXw1 (V4 m) c (ix2 p d) = ∑ k : Fin 512, aXp (V3 m) c (ix2 p k) * aW1 (V3 m) c (ix2 k d) :=
    (congrFun (W4_arr m c 2) (ix2 p d)).trans (final0 (V3 m) c p d)
  rw [e1]
  unfold Cert.Gcn.xw1K
  refine Finset.sum_congr rfl fun k _ => ?_
  rw [V3_main_v8 m c p k, V3_main_arg2 m c]

theorem V5_hid (p : Fin 10240) (d : Fin 128) :
    aHid (V5 m) c (ix2 p d) = Cert.Gcn.hidK (xOf m c) (wOf m c) (W1Of m c) (b1Of m c) (flatOf m c) p d := by
  have e1 : aHid (V5 m) c (ix2 p d)
      = max (Cert.Gcn.accBlk (fun i j => aAdj (V4 m) c (ix2 i j)) (fun j d' => aXw1 (V4 m) c (ix2 j d')) p d 8 + aB1 (V4 m) c (ix2 (0 : Fin 1) d)) 0 :=
    (congrFun (W5_arr m c 3) (ix2 p d)).trans (final1 (V4 m) c p d)
  rw [e1]
  unfold Cert.Gcn.hidK
  rw [Cert.Gcn.acc1_eq_accBlk, V4_b1 m c, V3_main_v9 m c d, V4_adj m c]
  have eA : (fun i j => aAdj (V3 m) c (ix2 i j)) = Cert.Gcn.adj (wOf m c) (flatOf m c) := by
    funext i j; exact V3_main_v7 m c i j
  have eH : (fun j d' => aXw1 (V4 m) c (ix2 j d')) = Cert.Gcn.xw1K (xOf m c) (W1Of m c) := by
    funext j d'; exact V4_xw1 m c j d'
  rw [eA, eH]

theorem V6_hw2 (p : Fin 10240) (q : Fin 40) :
    aHw2 (V6 m) c (ix2 p q) = Cert.Gcn.hw2K (xOf m c) (wOf m c) (W1Of m c) (b1Of m c) (W2Of m c) (flatOf m c) p q := by
  have e1 : aHw2 (V6 m) c (ix2 p q) = ∑ d : Fin 128, aHid (V5 m) c (ix2 p d) * aW2 (V5 m) c (ix2 d q) :=
    (congrFun (W6_arr m c 2) (ix2 p q)).trans (final2 (V5 m) c p q)
  rw [e1]
  unfold Cert.Gcn.hw2K
  refine Finset.sum_congr rfl fun d _ => ?_
  rw [V5_hid m c p d, V5_w2 m c]

theorem V7_out (p : Fin 10240) (q : Fin 40) :
    aOut (V7 m) c (ix2 p q) = Cert.Gcn.outK (xOf m c) (wOf m c) (W1Of m c) (b1Of m c) (W2Of m c) (b2Of m c) (flatOf m c) p q := by
  have e1 : aOut (V7 m) c (ix2 p q)
      = Cert.Gcn.logSoftmax (fun c' => Cert.Gcn.accBlk (fun i j => aAdj (V6 m) c (ix2 i j)) (fun j d' => aHw2 (V6 m) c (ix2 j d')) p c' 8 + aB2 (V6 m) c (ix2 (0 : Fin 1) c')) q :=
    (congrFun (W7_arr m c 3) (ix2 p q)).trans (final3 (V6 m) c p q)
  rw [e1]
  unfold Cert.Gcn.outK
  have eA : (fun i j => aAdj (V3 m) c (ix2 i j)) = Cert.Gcn.adj (wOf m c) (flatOf m c) := by
    funext i j; exact V3_main_v7 m c i j
  have eH : (fun j d' => aHw2 (V6 m) c (ix2 j d')) = Cert.Gcn.hw2K (xOf m c) (wOf m c) (W1Of m c) (b1Of m c) (W2Of m c) (flatOf m c) := by
    funext j d'; exact V6_hw2 m c j d'
  rw [V6_adj m c, eA, eH, V6_b2 m c]
  refine congrArg (fun z => Cert.Gcn.logSoftmax z q) (funext fun c' => ?_)
  unfold Cert.Gcn.logitsK
  rw [Cert.Gcn.acc2_eq_accBlk, V3_main_v10 m c c']

-- The result entry (p, q), read back region by region, is the dense form of the specification.
theorem kernel_value (p : Fin 10000) (q : Fin 40) :
    (W8 m c (Proc.devRef .tc main_v15) : Vec Ideal S10000x40 .f32) (ix2 p q)
      = Cert.Gcn.outK (xOf m c) (wOf m c) (W1Of m c) (b1Of m c) (W2Of m c) (b2Of m c) (flatOf m c) ⟨p.val, by omega⟩ q := by
  have h8 : (W8 m c (Proc.devRef .tc main_v15) : Vec Ideal S10000x40 .f32)
      = extractStridedSlice S10000x40 ![0, 0] (aOut (V7 m) c) slices_S10240x40_S10000x40_0_0 := by
    show StableHlo.after hostOps4 (W7 m c) (Proc.devRef .tc main_v15) = _
    after_results
  rw [h8, slice_apply]
  exact V7_out m c ⟨p.val, by omega⟩ q

end Value

end Cert.KernelIdeal.Hand

end
-- ==== Proof.SpecLaw.lean ====
import proofs.«418084_j71923522339154_1_alg».proof.Proof.Spec

noncomputable section

open scoped BigOperators

namespace Cert.Gcn

-- The extended reals are no semiring: the distributive step is taken for finite values only.
def IsR (a : EReal) : Prop := ∃ r : ℝ, a = (r : EReal)

theorem IsR.zero : IsR 0 := ⟨0, EReal.coe_zero.symm⟩

theorem IsR.add {a b : EReal} (ha : IsR a) (hb : IsR b) : IsR (a + b) := by
  obtain ⟨a, rfl⟩ := ha
  obtain ⟨b, rfl⟩ := hb
  exact ⟨a + b, (EReal.coe_add a b).symm⟩

theorem IsR.mul {a b : EReal} (ha : IsR a) (hb : IsR b) : IsR (a * b) := by
  obtain ⟨a, rfl⟩ := ha
  obtain ⟨b, rfl⟩ := hb
  exact ⟨a * b, (EReal.coe_mul a b).symm⟩

theorem IsR.max {a b : EReal} (ha : IsR a) (hb : IsR b) : IsR (max a b) := by
  rcases le_total a b with h | h
  · rw [max_eq_right h]; exact hb
  · rw [max_eq_left h]; exact ha

theorem IsR.ite {p : Prop} [Decidable p] {a b : EReal} (ha : IsR a) (hb : IsR b) : IsR (if p then a else b) := by
  split_ifs
  · exact ha
  · exact hb

theorem IsR.sum {ι : Type} (s : Finset ι) (f : ι → EReal) (hf : ∀ e ∈ s, IsR (f e)) : IsR (∑ e ∈ s, f e) :=
  Finset.sum_induction f IsR (fun _ _ => IsR.add) IsR.zero hf

theorem IsR.add_mul {a b c : EReal} (ha : IsR a) (hb : IsR b) (hc : IsR c) : (a + b) * c = a * c + b * c := by
  obtain ⟨a, rfl⟩ := ha
  obtain ⟨b, rfl⟩ := hb
  obtain ⟨c, rfl⟩ := hc
  rw [← EReal.coe_add, ← EReal.coe_mul, ← EReal.coe_mul, ← EReal.coe_mul, ← EReal.coe_add, _root_.add_mul]

theorem sum_mul_of_isR {ι : Type} (s : Finset ι) (f : ι → EReal) (c : EReal) (hf : ∀ e, IsR (f e)) (hc : IsR c) :
    (∑ e ∈ s, f e) * c = ∑ e ∈ s, f e * c := by
  classical
  induction s using Finset.induction_on with
  | empty => simp
  | insert a s ha ih =>
    rw [Finset.sum_insert ha, Finset.sum_insert ha, ← ih]
    exact IsR.add_mul (hf a) (IsR.sum s f (fun e _ => hf e)) hc

theorem sum_blocks (F : Fin 10240 → EReal) :
    ∑ kb : Fin 8, ∑ j : Fin 1280, F (blkRow kb j) = ∑ j' : Fin 10240, F j' := by
  have h := (finProdFinEquiv : Fin 8 × Fin 1280 ≃ Fin (8 * 1280)).sum_comp (fun j' : Fin (8 * 1280) => F j')
  rw [Fintype.sum_prod_type] at h
  rw [← h]
  apply Finset.sum_congr rfl
  intro kb _
  apply Finset.sum_congr rfl
  intro j _
  congr 1
  apply Fin.ext
  show 1280 * kb.val + j.val = j.val + 1280 * kb.val
  omega

def pad (i : Fin 10000) : Fin 10240 := ⟨i.val, by omega⟩

section Layer
variable (w : Fin 640000 → EReal) (srcN : Fin 640000 → Fin 10000) (dst flat : Fin 640000 → ℤ)

-- For sources and destinations in range the flat cell determines the pair.
theorem cell_iff (hdst : ∀ e, 0 ≤ dst e ∧ dst e < 10000)
    (hflat : ∀ e, flat e = dst e * 10240 + ((srcN e).val : ℤ)) (e : Fin 640000) (i j : Fin 10240) :
    flat e = ((i.val * 10240 + j.val : ℕ) : ℤ) ↔ dst e = (i.val : ℤ) ∧ (srcN e).val = j.val := by
  have h1 := hflat e
  have h2 := hdst e
  have h3 := (srcN e).isLt
  have h4 := j.isLt
  push_cast
  omega

-- One layer: the dense sum over padded nodes of adjacency times features is the sum over the edges into the node.
theorem layer_eq (hw : ∀ e, IsR (w e)) (hdst : ∀ e, 0 ≤ dst e ∧ dst e < 10000)
    (hflat : ∀ e, flat e = dst e * 10240 + ((srcN e).val : ℤ))
    (y : Fin 10240 → EReal) (hy : ∀ j : Fin 10240, j.val < 10000 → IsR (y j)) (i : Fin 10240) :
    ∑ j' : Fin 10240, adj w flat i j' * y j'
      = ∑ e : Fin 640000, if dst e = (i.val : ℤ) then w e * y (pad (srcN e)) else 0 := by
  calc ∑ j' : Fin 10240, adj w flat i j' * y j'
      = ∑ j' : Fin 10240, ∑ e : Fin 640000,
          if flat e = ((i.val * 10240 + j'.val : ℕ) : ℤ) then w e * y j' else 0 := by
        apply Finset.sum_congr rfl
        intro j' _
        by_cases hj : j'.val < 10000
        ·
          unfold adj
          rw [sum_mul_of_isR _ _ _ (fun e => IsR.ite (hw e) IsR.zero) (hy j' hj)]
          apply Finset.sum_congr rfl
          intro e _
          rw [ite_mul, zero_mul]
        ·
          have hne : ∀ e, ¬ flat e = ((i.val * 10240 + j'.val : ℕ) : ℤ) := by
            intro e h
            have := ((cell_iff srcN dst flat hdst hflat e i j').1 h).2
            have := (srcN e).isLt
            omega
          unfold adj
          rw [Finset.sum_eq_zero (fun e _ => if_neg (hne e)), zero_mul]
          exact (Finset.sum_eq_zero (fun e _ => if_neg (hne e))).symm
    _ = ∑ e : Fin 640000, ∑ j' : Fin 10240,
          if flat e = ((i.val * 10240 + j'.val : ℕ) : ℤ) then w e * y j' else 0 := Finset.sum_comm
    _ = ∑ e : Fin 640000, if dst e = (i.val : ℤ) then w e * y (pad (srcN e)) else 0 := by
        apply Finset.sum_congr rfl
        intro e _
        by_cases hd : dst e = (i.val : ℤ)
        ·
          rw [if_pos hd, Finset.sum_eq_single (pad (srcN e))]
          · rw [if_pos ((cell_iff srcN dst flat hdst hflat e i (pad (srcN e))).2 ⟨hd, rfl⟩)]
          · intro j' _ hne
            rw [if_neg]
            intro h
            exact hne (Fin.ext ((cell_iff srcN dst flat hdst hflat e i j').1 h).2.symm)
          · intro h
            exact absurd (Finset.mem_univ _) h
        · rw [if_neg hd]
          apply Finset.sum_eq_zero
          intro j' _
          rw [if_neg]
          intro h
          exact hd ((cell_iff srcN dst flat hdst hflat e i j').1 h).1

end Layer

section Main
variable (x : Fin 10000 → Fin 512 → EReal) (w : Fin 640000 → EReal) (W1 : Fin 512 → Fin 128 → EReal)
  (b1 : Fin 128 → EReal) (W2 : Fin 128 → Fin 40 → EReal) (b2 : Fin 40 → EReal)
  (srcN : Fin 640000 → Fin 10000) (dst flat : Fin 640000 → ℤ)

theorem xw1K_pad (i : Fin 10000) (d : Fin 128) : xw1K x W1 (pad i) d = xw1 x W1 i d := by
  unfold xw1K xw1
  apply Finset.sum_congr rfl
  intro k _
  have h : xpad x (pad i) k = x i k := by
    unfold xpad
    rw [dif_pos (show (pad i).val < 10000 from i.isLt)]
    rfl
  rw [h]

theorem xw1_isR (hx : ∀ i k, IsR (x i k)) (hW1 : ∀ k d, IsR (W1 k d)) (i : Fin 10000) (d : Fin 128) :
    IsR (xw1 x W1 i d) :=
  IsR.sum _ _ (fun k _ => IsR.mul (hx i k) (hW1 k d))

theorem acc1_eight (i : Fin 10240) (d : Fin 128) :
    acc1 x w W1 flat i d 8 = ∑ kb : Fin 8, part1 x w W1 flat i d kb := by
  rw [Fin.sum_univ_eight]
  simp [acc1]

theorem acc2_eight (i : Fin 10240) (c : Fin 40) :
    acc2 x w W1 b1 W2 flat i c 8 = ∑ kb : Fin 8, part2 x w W1 b1 W2 flat i c kb := by
  rw [Fin.sum_univ_eight]
  simp [acc2]

variable (hx : ∀ i k, IsR (x i k)) (hw : ∀ e, IsR (w e)) (hW1 : ∀ k d, IsR (W1 k d)) (hb1 : ∀ d, IsR (b1 d))
  (hW2 : ∀ d c, IsR (W2 d c)) (hdst : ∀ e, 0 ≤ dst e ∧ dst e < 10000)
  (hflat : ∀ e, flat e = dst e * 10240 + ((srcN e).val : ℤ))

include hx hw hW1 hdst hflat in

theorem acc1_eq_agg1 (i : Fin 10000) (d : Fin 128) :
    acc1 x w W1 flat (pad i) d 8 = agg1 x w W1 srcN dst i d := by
  rw [acc1_eight]
  refine (sum_blocks (fun j' => adj w flat (pad i) j' * xw1K x W1 j' d)).trans ?_
  rw [layer_eq w srcN dst flat hw hdst hflat (fun j' => xw1K x W1 j' d) ?_ (pad i)]
  · unfold agg1
    apply Finset.sum_congr rfl
    intro e _
    rw [xw1K_pad]
    rfl
  · intro j hj
    have : j = pad ⟨j.val, hj⟩ := rfl
    rw [this, xw1K_pad]
    exact xw1_isR x W1 hx hW1 _ _

include hx hw hW1 hdst hflat in

theorem hidK_pad (i : Fin 10000) (d : Fin 128) :
    hidK x w W1 b1 flat (pad i) d = hid x w W1 b1 srcN dst i d := by
  unfold hidK hid
  rw [acc1_eq_agg1 x w W1 srcN dst flat hx hw hW1 hdst hflat]

include hx hw hW1 hdst hflat in
theorem hw2K_pad (i : Fin 10000) (c : Fin 40) :
    hw2K x w W1 b1 W2 flat (pad i) c = hw2 x w W1 b1 W2 srcN dst i c := by
  unfold hw2K hw2
  apply Finset.sum_congr rfl
  intro d _
  rw [hidK_pad x w W1 b1 srcN dst flat hx hw hW1 hdst hflat]

include hx hw hW1 hb1 hW2 in

theorem hw2_isR (i : Fin 10000) (c : Fin 40) : IsR (hw2 x w W1 b1 W2 srcN dst i c) := by
  refine IsR.sum _ _ (fun d _ => IsR.mul ?_ (hW2 d c))
  refine IsR.max (IsR.add ?_ (hb1 d)) IsR.zero
  exact IsR.sum _ _ (fun e _ => IsR.ite (IsR.mul (hw e) (xw1_isR x W1 hx hW1 _ _)) IsR.zero)

include hx hw hW1 hb1 hW2 hdst hflat in

theorem acc2_eq_agg2 (i : Fin 10000) (c : Fin 40) :
    acc2 x w W1 b1 W2 flat (pad i) c 8 = agg2 x w W1 b1 W2 srcN dst i c := by
  rw [acc2_eight]
  refine (sum_blocks (fun j' => adj w flat (pad i) j' * hw2K x w W1 b1 W2 flat j' c)).trans ?_
  rw [layer_eq w srcN dst flat hw hdst hflat (fun j' => hw2K x w W1 b1 W2 flat j' c) ?_ (pad i)]
  · unfold agg2
    apply Finset.sum_congr rfl
    intro e _
    rw [hw2K_pad x w W1 b1 W2 srcN dst flat hx hw hW1 hdst hflat]
    rfl
  · intro j hj
    have : j = pad ⟨j.val, hj⟩ := rfl
    rw [this, hw2K_pad x w W1 b1 W2 srcN dst flat hx hw hW1 hdst hflat]
    exact hw2_isR x w W1 b1 W2 srcN dst hx hw hW1 hb1 hW2 _ _

end Main

theorem logitsK_eq_logits
    (x : Fin 10000 → Fin 512 → EReal) (w : Fin 640000 → EReal) (W1 : Fin 512 → Fin 128 → EReal) (b1 : Fin 128 → EReal)
    (W2 : Fin 128 → Fin 40 → EReal) (b2 : Fin 40 → EReal)
    (srcN : Fin 640000 → Fin 10000) (dst flat : Fin 640000 → ℤ)
    (hx : ∀ i k, ∃ r : ℝ, x i k = (r : EReal)) (hw : ∀ e, ∃ r : ℝ, w e = (r : EReal))
    (hW1 : ∀ k d, ∃ r : ℝ, W1 k d = (r : EReal)) (hb1 : ∀ d, ∃ r : ℝ, b1 d = (r : EReal))
    (hW2 : ∀ d c, ∃ r : ℝ, W2 d c = (r : EReal))
    (hdst : ∀ e, 0 ≤ dst e ∧ dst e < 10000)
    (hflat : ∀ e, flat e = dst e * 10240 + ((srcN e).val : ℤ))
    (i : Fin 10000) (c : Fin 40) :
    logitsK x w W1 b1 W2 b2 flat ⟨i.val, by omega⟩ c = logits x w W1 b1 W2 b2 srcN dst i c := by
  unfold logitsK logits
  rw [← acc2_eq_agg2 x w W1 b1 W2 srcN dst flat hx hw hW1 hb1 hW2 hdst hflat i c]
  rfl

-- The dense form agrees with the edge form on the first 10000 rows.
theorem outK_eq_out
    (x : Fin 10000 → Fin 512 → EReal) (w : Fin 640000 → EReal) (W1 : Fin 512 → Fin 128 → EReal) (b1 : Fin 128 → EReal)
    (W2 : Fin 128 → Fin 40 → EReal) (b2 : Fin 40 → EReal)
    (srcN : Fin 640000 → Fin 10000) (dst flat : Fin 640000 → ℤ)
    (hx : ∀ i k, ∃ r : ℝ, x i k = (r : EReal)) (hw : ∀ e, ∃ r : ℝ, w e = (r : EReal))
    (hW1 : ∀ k d, ∃ r : ℝ, W1 k d = (r : EReal)) (hb1 : ∀ d, ∃ r : ℝ, b1 d = (r : EReal))
    (hW2 : ∀ d c, ∃ r : ℝ, W2 d c = (r : EReal))
    (hdst : ∀ e, 0 ≤ dst e ∧ dst e < 10000)
    (hflat : ∀ e, flat e = dst e * 10240 + ((srcN e).val : ℤ))
    (i : Fin 10000) (c : Fin 40) :
    outK x w W1 b1 W2 b2 flat ⟨i.val, by omega⟩ c = out x w W1 b1 W2 b2 srcN dst i c := by
  unfold outK out
  have h : logitsK x w W1 b1 W2 b2 flat ⟨i.val, by omega⟩ = logits x w W1 b1 W2 b2 srcN dst i :=
    funext (fun c' => logitsK_eq_logits x w W1 b1 W2 b2 srcN dst flat hx hw hW1 hb1 hW2 hdst hflat i c')
  rw [h]

end Cert.Gcn

end
-- ==== Proof.lean ====
import proofs.«418084_j71923522339154_1_alg».proof.Defs
import proofs.«418084_j71923522339154_1_alg».proof.Proof.Gen.Kernel
import proofs.«418084_j71923522339154_1_alg».proof.Proof.Gen.KernelIdeal
import proofs.«418084_j71923522339154_1_alg».proof.Proof.Gen.ReferenceIdeal
import proofs.«418084_j71923522339154_1_alg».proof.Proof.Gen.Pre_finite_inputs
import proofs.«418084_j71923522339154_1_alg».proof.Proof.RefRead
import proofs.«418084_j71923522339154_1_alg».proof.Proof.RefValue
import proofs.«418084_j71923522339154_1_alg».proof.Proof.Run
import proofs.«418084_j71923522339154_1_alg».proof.Proof.KernelValue
import proofs.«418084_j71923522339154_1_alg».proof.Proof.PreFacts
import proofs.«418084_j71923522339154_1_alg».proof.Proof.SpecLaw
import Idealize.ShloMosaic.Lib.ValueIdx
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

-- No operation was rewritten: the two kernel programs' body tables are one term.
set_option smartUnfolding false in
theorem defs_eq {F : FTy → Type} [FloatOps F] : Cert.Kernel.defs (F := F) = Cert.KernelIdeal.defs (F := F) := rfl

-- The run is proved once, for every reading of the floats; the program as printed is the same term read at another.
theorem frame_k : Cert.frame_Kernel := by
  intro m ρ _
  rw [defs_eq]
  exact (θ_run Cert.KernelIdeal.defs _ _).mono (fun _ h c => (h c).2) (Cert.KernelIdeal.Hand.run_value m ρ)

theorem frame_ki : Cert.frame_KernelIdeal := fun m ρ _ =>
  (θ_run Cert.KernelIdeal.defs _ _).mono (fun _ h c => (h c).2) (Cert.KernelIdeal.Hand.run_value m ρ)

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

-- The kernel's result is the dense form of the two-layer convolution, the reference's the edge form; they agree
-- because a flat cell dst · 10240 + src determines (dst, src) in range and (Σ_e w e) · y = Σ_e (w e · y) for finite values.
theorem algebraic : Cert.algebraic_KernelIdeal_ReferenceIdeal := by
  intro m ρ m' ρ' hpre hagree
  refine ⟨fun c => Cert.KernelIdeal.Hand.W8 m c (Proc.devRef .tc Cert.KernelIdeal.main_v15), Cert.KernelIdeal.Hand.run_value m ρ, ?_⟩
  refine (θ_run Cert.ReferenceIdeal.defs _ _).mono (fun _ h c => ⟨(h c).1.trans ?_, (h c).2⟩) (Cert.ReferenceIdeal.ValueP.run (F := Ideal) m' ρ')
  obtain ⟨a0, a1, a2, a3, a4, a5, a6, a7⟩ := hagree c
  funext idx
  obtain ⟨p, q, rfl⟩ : ∃ (p : Fin 10000) (q : Fin 40), idx = ix2 p q := ⟨idx 0, idx 1, eq_ix2 idx⟩
  obtain ⟨h0, h1, h2, h3, h4, h5, h6, h7⟩ := Cert.PreFacts.of_pre _ _ _ _ _ _ _ _ (hpre c)
  refine ((congrFun (Cert.ReferenceIdeal.RefValue.res_eq m' c) (ix2 p q)).trans ?_).trans (Cert.KernelIdeal.Hand.kernel_value m c p q).symm
  rw [a0, a1, a2, a3, a4, a5, a6, a7]
  refine (Cert.Gcn.outK_eq_out _ _ _ _ _ _ _ _ _ (fun i k => h0 (ix2 i k)) (fun e => h1 (ix1 e)) (fun k d => h2 (ix2 k d))
    (fun d => h3 (ix1 d)) (fun d c' => h4 (ix2 d c')) (fun e => h7 (ix1 e)) (fun e => ?_) p q).symm
  show ((Cert.KernelIdeal.Hand.mDst m c (ix1 e) * 10240#32 + Cert.KernelIdeal.Hand.mSrc m c (ix1 e)).toInt : ℤ) = _
  rw [Cert.PreFacts.flat_toInt _ _ (h7 (ix1 e)) (h6 (ix1 e)), Cert.ReferenceIdeal.RefValue.srcN_of_range _ e (h6 (ix1 e))]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
